-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x16 : Shape := ⟨2, ![800000, 16]⟩
abbrev S64x64 : Shape := ⟨2, ![64, 64]⟩
abbrev S64 : Shape := ⟨1, ![64]⟩
abbrev S144x64 : Shape := ⟨2, ![144, 64]⟩
abbrev S192x64 : Shape := ⟨2, ![192, 64]⟩
abbrev S64x1 : Shape := ⟨2, ![64, 1]⟩
abbrev S1 : Shape := ⟨1, ![1]⟩
abbrev S2x800000 : Shape := ⟨2, ![2, 800000]⟩
abbrev S50000 : Shape := ⟨1, ![50000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S144x64 : S_.BroadcastsInDim S144x64 (![] : Fin 0 → Fin S144x64.rank)
  reducesTo_S144x64_S_d0_1 : S144x64.ReducesTo [0, 1] S_
  bcast_S_S192x64 : S_.BroadcastsInDim S192x64 (![] : Fin 0 → Fin S192x64.rank)
  reducesTo_S192x64_S_d0_1 : S192x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64 .f32) (main_arg8 : FVec F S64x1 .f32) (main_arg9 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S144x64 .f32) (main_arg5 : FVec F S64 .f32) (main_arg6 : FVec F S192x64 .f32) (main_arg7 : FVec F S64 .f32) (main_arg8 : FVec F S64x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S144x64 .f32 := Host.absf main_arg4
  let main_cst_6 : FVec F S_ .f32 := constant S_ .f32 0x7F800000#32
  let main_v20 : FVec F S144x64 .f32 := broadcastInDim S144x64 ![] bcast_S_S144x64 main_cst_6
  let main_v21 : IVec S144x64 1 := cmpf .olt main_v19 main_v20
  let main_c_7 : IVec S_ 1 := constantI S_ 1 1#1
  let main_v22 : IVec S_ 1 := (fun x v => Host.reduce IntOp.andi x v reducesTo_S144x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg6
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x64 .f32) (main_arg1 : FVec F S800000x16 .f32) (main_arg2 : FVec F S64x64 .f32) (main_arg3 : FVec F S64 .f32) (main_arg4 : FVec F S144x64 .f32) (main_arg5 : FVec F S64 .f32) (main_arg6 : FVec F S192x64 .f32) (main_arg7 : FVec F S64 .f32) (main_arg8 : FVec F S64x1 .f32) (main_arg9 : FVec F S1 .f32) (main_arg10 : IVec S2x800000 32) (main_arg11 : IVec S50000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg1
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S50000x64 : Shape := ⟨2, ![50000, 64]⟩
abbrev S800000x16 : Shape := ⟨2, ![800000, 16]⟩
abbrev S64x64 : Shape := ⟨2, ![64, 64]⟩
abbrev S64 : Shape := ⟨1, ![64]⟩
abbrev S144x64 : Shape := ⟨2, ![144, 64]⟩
abbrev S192x64 : Shape := ⟨2, ![192, 64]⟩
abbrev S64x1 : Shape := ⟨2, ![64, 1]⟩
abbrev S1 : Shape := ⟨1, ![1]⟩
abbrev S2x800000 : Shape := ⟨2, ![2, 800000]⟩
abbrev S50000 : Shape := ⟨1, ![50000]⟩
abbrev S1x64 : Shape := ⟨2, ![1, 64]⟩
abbrev S5000x64 : Shape := ⟨2, ![5000, 64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S50000x16 : Shape := ⟨2, ![50000, 16]⟩
abbrev S850000x16 : Shape := ⟨2, ![850000, 16]⟩
abbrev S850000x1 : Shape := ⟨2, ![850000, 1]⟩
abbrev S50000x1 : Shape := ⟨2, ![50000, 1]⟩
abbrev S850000x64 : Shape := ⟨2, ![850000, 64]⟩
abbrev S50000x144 : Shape := ⟨2, ![50000, 144]⟩
abbrev S5000x144 : Shape := ⟨2, ![5000, 144]⟩
abbrev S50000x192 : Shape := ⟨2, ![50000, 192]⟩
abbrev S5000x192 : Shape := ⟨2, ![5000, 192]⟩
abbrev S1x1 : Shape := ⟨2, ![1, 1]⟩
abbrev S256x1 : Shape := ⟨2, ![256, 1]⟩
abbrev S5000x1 : Shape := ⟨2, ![5000, 1]⟩
abbrev S256x64 : Shape := ⟨2, ![256, 64]⟩
abbrev S5000x256 : Shape := ⟨2, ![5000, 256]⟩

abbrev nBuf : Space → Nat
  | .hbm => 123
  | .vmem => 44
  | .smem => 0
  | _ => 0

abbrev bufTy : (tb : Table) → Fin (tcTables nBuf tb) → BufTy
  | .hbm, ⟨0, _⟩ => ⟨S50000x64, .f32⟩
  | .hbm, ⟨1, _⟩ => ⟨S800000x16, .f32⟩
  | .hbm, ⟨2, _⟩ => ⟨S64x64, .f32⟩
  | .hbm, ⟨3, _⟩ => ⟨S64, .f32⟩
  | .hbm, ⟨4, _⟩ => ⟨S144x64, .f32⟩
  | .hbm, ⟨5, _⟩ => ⟨S64, .f32⟩
  | .hbm, ⟨6, _⟩ => ⟨S192x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S2x800000, .i32⟩
  | .hbm, ⟨11, _⟩ => ⟨S50000, .i32⟩
  | .hbm, ⟨12, _⟩ => ⟨S1x64, .f32⟩
  | .hbm, ⟨13, _⟩ => ⟨S50000x64, .f32⟩
  | .hbm, ⟨14, _⟩ => ⟨S50000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S1x800000, .i32⟩
  | .hbm, ⟨19, _⟩ => ⟨S800000, .i32⟩
  | .hbm, ⟨20, _⟩ => ⟨S850000, .i32⟩
  | .hbm, ⟨21, _⟩ => ⟨S_, .f32⟩
  | .hbm, ⟨22, _⟩ => ⟨S50000x16, .f32⟩
  | .hbm, ⟨23, _⟩ => ⟨S850000x16, .f32⟩
  | .hbm, ⟨24, _⟩ => ⟨S_, .f32⟩
  | .hbm, ⟨25, _⟩ => ⟨S850000, .f32⟩
  | .hbm, ⟨26, _⟩ => ⟨S_, .f32⟩
  | .hbm, ⟨27, _⟩ => ⟨S50000, .f32⟩
  | .hbm, ⟨28, _⟩ => ⟨S850000x1, .i32⟩
  | .hbm, ⟨29, _⟩ => ⟨S50000, .f32⟩
  | .hbm, ⟨30, _⟩ => ⟨S50000x1, .f32⟩
  | .hbm, ⟨31, _⟩ => ⟨S_, .f32⟩
  | .hbm, ⟨32, _⟩ => ⟨S50000x16, .f32⟩
  | .hbm, ⟨33, _⟩ => ⟨S850000x1, .i32⟩
  | .hbm, ⟨34, _⟩ => ⟨S50000x16, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000x64, .f32⟩
  | .hbm, ⟨44, _⟩ => ⟨S_, .f32⟩
  | .hbm, ⟨45, _⟩ => ⟨S50000x64, .f32⟩
  | .hbm, ⟨46, _⟩ => ⟨S850000x1, .i32⟩
  | .hbm, ⟨47, _⟩ => ⟨S50000x64, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S_, .f32⟩
  | .hbm, ⟨58, _⟩ => ⟨S50000x64, .f32⟩
  | .hbm, ⟨59, _⟩ => ⟨S850000x1, .i32⟩
  | .hbm, ⟨60, _⟩ => ⟨S50000x64, .f32⟩
  | .hbm, ⟨61, _⟩ => ⟨S50000x64, .f32⟩
  | .hbm, ⟨62, _⟩ => ⟨S50000x64, .f32⟩
  | .hbm, ⟨63, _⟩ => ⟨S50000x144, .f32⟩
  | .hbm, ⟨64, _⟩ => ⟨S1x64, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S_, .f32⟩
  | .hbm, ⟨76, _⟩ => ⟨S50000x64, .f32⟩
  | .hbm, ⟨77, _⟩ => ⟨S850000x1, .i32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S50000x144, .f32⟩
  | .hbm, ⟨82, _⟩ => ⟨S1x64, .f32⟩
  | .hbm, ⟨83, _⟩ => ⟨S50000x64, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000x64, .f32⟩
  | .hbm, ⟨93, _⟩ => ⟨S_, .f32⟩
  | .hbm, ⟨94, _⟩ => ⟨S50000x64, .f32⟩
  | .hbm, ⟨95, _⟩ => ⟨S850000x1, .i32⟩
  | .hbm, ⟨96, _⟩ => ⟨S50000x64, .f32⟩
  | .hbm, ⟨97, _⟩ => ⟨S50000x64, .f32⟩
  | .hbm, ⟨98, _⟩ => ⟨S50000x64, .f32⟩
  | .hbm, ⟨99, _⟩ => ⟨S50000x144, .f32⟩
  | .hbm, ⟨100, _⟩ => ⟨S1x64, .f32⟩
  | .hbm, ⟨101, _⟩ => ⟨S50000x64, .f32⟩
  | .hbm, ⟨102, _⟩ => ⟨S_, .i32⟩
  | .hbm, ⟨103, _⟩ => ⟨S850000, .i32⟩
  | .hbm, ⟨104, _⟩ => ⟨S850000, .i1⟩
  | .hbm, ⟨105, _⟩ => ⟨S_, .i32⟩
  | .hbm, ⟨106, _⟩ => ⟨S850000, .i32⟩
  | .hbm, ⟨107, _⟩ => ⟨S850000, .i32⟩
  | .hbm, ⟨108, _⟩ => ⟨S850000, .i32⟩
  | .hbm, ⟨109, _⟩ => ⟨S850000x1, .i32⟩
  | .hbm, ⟨110, _⟩ => ⟨S850000x64, .f32⟩
  | .hbm, ⟨111, _⟩ => ⟨S_, .f32⟩
  | .hbm, ⟨112, _⟩ => ⟨S50000x64, .f32⟩
  | .hbm, ⟨113, _⟩ => ⟨S850000x1, .i32⟩
  | .hbm, ⟨114, _⟩ => ⟨S50000x64, .f32⟩
  | .hbm, ⟨115, _⟩ => ⟨S50000x64, .f32⟩
  | .hbm, ⟨116, _⟩ => ⟨S50000x64, .f32⟩
  | .hbm, ⟨117, _⟩ => ⟨S50000x192, .f32⟩
  | .hbm, ⟨118, _⟩ => ⟨S1x64, .f32⟩
  | .hbm, ⟨119, _⟩ => ⟨S50000x64, .f32⟩
  | .hbm, ⟨120, _⟩ => ⟨S50000x1, .i32⟩
  | .hbm, ⟨121, _⟩ => ⟨S1x1, .f32⟩
  | .hbm, ⟨122, _⟩ => ⟨S256x1, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x144, .f32⟩
  | .local _ .vmem, ⟨7, _⟩ => ⟨S5000x144, .f32⟩
  | .local _ .vmem, ⟨8, _⟩ => ⟨S144x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x144, .f32⟩
  | .local _ .vmem, ⟨15, _⟩ => ⟨S5000x144, .f32⟩
  | .local _ .vmem, ⟨16, _⟩ => ⟨S144x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x144, .f32⟩
  | .local _ .vmem, ⟨23, _⟩ => ⟨S5000x144, .f32⟩
  | .local _ .vmem, ⟨24, _⟩ => ⟨S144x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x192, .f32⟩
  | .local _ .vmem, ⟨31, _⟩ => ⟨S5000x192, .f32⟩
  | .local _ .vmem, ⟨32, _⟩ => ⟨S192x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x1, .i32⟩
  | .local _ .vmem, ⟨39, _⟩ => ⟨S5000x1, .i32⟩
  | .local _ .vmem, ⟨40, _⟩ => ⟨S64x1, .f32⟩
  | .local _ .vmem, ⟨41, _⟩ => ⟨S1x1, .f32⟩
  | .local _ .vmem, ⟨42, _⟩ => ⟨S256x1, .f32⟩
  | .local _ .vmem, ⟨43, _⟩ => ⟨S256x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_14 : Ref sig .tc := ⟨.hbm, 102, rfl⟩
abbrev main_v74 : Ref sig .tc := ⟨.hbm, 103, rfl⟩
abbrev main_v75 : Ref sig .tc := ⟨.hbm, 104, rfl⟩
abbrev main_c_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x144 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S144x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x144 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S144x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x144 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S144x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S192x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

class Facts₀ : Prop where
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000x16 : S_.BroadcastsInDim S50000x16 (![] : Fin 0 → Fin S50000x16.rank)
  concatenates_S800000x16_S50000x16_S850000x16_d0 : Shape.Concatenates [S800000x16, S50000x16] S850000x16 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  concatenates_S50000x64_S50000x64_S50000x16_S50000x144_d1 : Shape.Concatenates [S50000x64, S50000x64, S50000x16] S50000x144 1
  inb_S5000x144_S5000x144_0_0 : ∀ a, (![0, 0] : Fin 2 → Nat) a + S5000x144.size a ≤ S5000x144.size a
  h_S5000x144 : 0 < S5000x144.numel
  shapeCasts_S5000x144_S5000x144 : S5000x144.ShapeCasts S5000x144
  inb_S144x64_S144x64_0_0 : ∀ a, (![0, 0] : Fin 2 → Nat) a + S144x64.size a ≤ S144x64.size a
  h_S144x64 : 0 < S144x64.numel
  shapeCasts_S5000x64_S5000x64 : S5000x64.ShapeCasts S5000x64
  concatenates_S50000x64_S50000x64_S50000x64_S50000x192_d1 : Shape.Concatenates [S50000x64, S50000x64, S50000x64] S50000x192 1
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  inb_S192x64_S192x64_0_0 : ∀ a, (![0, 0] : Fin 2 → Nat) a + S192x64.size a ≤ S192x64.size a
  h_S192x64 : 0 < S192x64.numel
  shapeCasts_S50000_S50000x1 : S50000.ShapeCasts S50000x1
  shapeCasts_S1_S1x1 : S1.ShapeCasts S1x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x256_d1_w32 : S5000x256.Iotas .tc 32 [1]
  broadcasts_S5000x1_S5000x256 : S5000x1.Broadcasts S5000x256
  natLt_1_32 : 1 < 32
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  dot_S5000x64_S64x64_S5000x64_1_0_0_1_n_n_wf : DotDims.WF S5000x64 S64x64 S5000x64 [1] [0] [0] [1] [] []
  scatter_S50000_S850000x1_S850000_n_0_0_1_wf : ScatterDims.WF S50000 S850000x1 S850000 [] [0] [0] 1
  scatter_S50000x16_S850000x1_S850000x16_1_0_0_1_wf : ScatterDims.WF S50000x16 S850000x1 S850000x16 [1] [0] [0] 1
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x144_S144x64_S5000x64_1_0_0_1_n_n_wf : DotDims.WF S5000x144 S144x64 S5000x64 [1] [0] [0] [1] [] []
  dot_S5000x192_S192x64_S5000x64_1_0_0_1_n_n_wf : DotDims.WF S5000x192 S192x64 S5000x64 [1] [0] [0] [1] [] []
  dot_S5000x256_S5000x64_S256x64_0_0_1_1_n_n_wf : DotDims.WF S5000x256 S5000x64 S256x64 [0] [0] [1] [1] [] []
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x144.size a ≤ S50000x144.size a
  hwx1_0 : ∀ i : grid1.Coords, EltTy.bits .f32 = 32 ∨ (Rect.block (s := S50000x144) S5000x144.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S144x64.size a ≤ S144x64.size a
  hwx1_1 : ∀ i : grid1.Coords, EltTy.bits .f32 = 32 ∨ (Rect.block (s := S144x64) S144x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x144.size a ≤ S50000x144.size a
  hwx2_0 : ∀ i : grid2.Coords, EltTy.bits .f32 = 32 ∨ (Rect.block (s := S50000x144) S5000x144.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S144x64.size a ≤ S144x64.size a
  hwx2_1 : ∀ i : grid2.Coords, EltTy.bits .f32 = 32 ∨ (Rect.block (s := S144x64) S144x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x144.size a ≤ S50000x144.size a
  hwx3_0 : ∀ i : grid3.Coords, EltTy.bits .f32 = 32 ∨ (Rect.block (s := S50000x144) S5000x144.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S144x64.size a ≤ S144x64.size a
  hwx3_1 : ∀ i : grid3.Coords, EltTy.bits .f32 = 32 ∨ (Rect.block (s := S144x64) S144x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x192.size a ≤ S50000x192.size a
  hwx4_0 : ∀ i : grid4.Coords, EltTy.bits .f32 = 32 ∨ (Rect.block (s := S50000x192) S5000x192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S192x64.size a ≤ S192x64.size a
  hwx4_1 : ∀ i : grid4.Coords, EltTy.bits .f32 = 32 ∨ (Rect.block (s := S192x64) S192x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .i32 = 32 ∨ (Rect.block (s := S50000x1) S5000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x1.size a ≤ S64x1.size a
  hwx5_2 : ∀ i : grid5.Coords, EltTy.bits .f32 = 32 ∨ (Rect.block (s := S64x1) S64x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x1.size a ≤ S256x1.size a
  hwx5_4 : ∀ i : grid5.Coords, EltTy.bits .f32 = 32 ∨ (Rect.block (s := S256x1) S256x1.size (cc5_transform_4 i) (hinb5_4 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x144_S144x64_S5000x64_1_0_0_1_n_n : DotDims S5000x144 S144x64 S5000x64 where
  lhsContracting := [1]
  rhsContracting := [0]
  lhsNonContracting := [0]
  rhsNonContracting := [1]
  lhsBatch := []
  rhsBatch := []
  wf := dot_S5000x144_S144x64_S5000x64_1_0_0_1_n_n_wf
def dot_S5000x192_S192x64_S5000x64_1_0_0_1_n_n : DotDims S5000x192 S192x64 S5000x64 where
  lhsContracting := [1]
  rhsContracting := [0]
  lhsNonContracting := [0]
  rhsNonContracting := [1]
  lhsBatch := []
  rhsBatch := []
  wf := dot_S5000x192_S192x64_S5000x64_1_0_0_1_n_n_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S5000x144.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S144x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v56) S5000x144.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S144x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v58) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v71) S5000x144.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S144x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v1) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v73) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v86) S5000x192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S192x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v87) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v88) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S64x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v90) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v91) S256x1.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

class Facts : Prop extends Facts₀ where

variable [Facts]
-- ==== ReferenceIdeal.lean ====
abbrev S50000x64 : Shape := ⟨2, ![50000, 64]⟩
abbrev S800000x16 : Shape := ⟨2, ![800000, 16]⟩
abbrev S64x64 : Shape := ⟨2, ![64, 64]⟩
abbrev S64 : Shape := ⟨1, ![64]⟩
abbrev S144x64 : Shape := ⟨2, ![144, 64]⟩
abbrev S192x64 : Shape := ⟨2, ![192, 64]⟩
abbrev S64x1 : Shape := ⟨2, ![64, 1]⟩
abbrev S1 : Shape := ⟨1, ![1]⟩
abbrev S2x800000 : Shape := ⟨2, ![2, 800000]⟩
abbrev S50000 : Shape := ⟨1, ![50000]⟩
abbrev S1x64 : Shape := ⟨2, ![1, 64]⟩
abbrev S_ : Shape := ⟨0, ![]⟩
abbrev S1x800000 : Shape := ⟨2, ![1, 800000]⟩
abbrev S800000 : Shape := ⟨1, ![800000]⟩
abbrev S850000 : Shape := ⟨1, ![850000]⟩
abbrev S50000x16 : Shape := ⟨2, ![50000, 16]⟩
abbrev S850000x16 : Shape := ⟨2, ![850000, 16]⟩
abbrev S850000x1 : Shape := ⟨2, ![850000, 1]⟩
abbrev S850000x64 : Shape := ⟨2, ![850000, 64]⟩
abbrev S850000x144 : Shape := ⟨2, ![850000, 144]⟩
abbrev S50000x144 : Shape := ⟨2, ![50000, 144]⟩
abbrev S850000x192 : Shape := ⟨2, ![850000, 192]⟩
abbrev S50000x192 : Shape := ⟨2, ![50000, 192]⟩
abbrev S256x64 : Shape := ⟨2, ![256, 64]⟩
abbrev S50000x1 : Shape := ⟨2, ![50000, 1]⟩
abbrev S256x1 : Shape := ⟨2, ![256, 1]⟩
abbrev S1x1 : Shape := ⟨2, ![1, 1]⟩

abbrev nBuf : Space → Nat
  | .hbm => 169
  | .vmem => 0
  | .smem => 0
  | _ => 0

abbrev hbmTy0_0 (i : Nat) : BufTy := match i % 128 with
  | 0 => ⟨S50000x64, .f32⟩
  | 1 => ⟨S800000x16, .f32⟩
  | 2 => ⟨S64x64, .f32⟩
  | 3 => ⟨S64, .f32⟩
  | 4 => ⟨S144x64, .f32⟩
  | 5 => ⟨S64, .f32⟩
  | 6 => ⟨S192x64, .f32⟩
  | 7 => ⟨S64, .f32⟩
  | 8 => ⟨S64x1, .f32⟩
  | 9 => ⟨S1, .f32⟩
  | 10 => ⟨S2x800000, .i32⟩
  | 11 => ⟨S50000, .i32⟩
  | 12 => ⟨S50000x64, .f32⟩
  | 13 => ⟨S1x64, .f32⟩
  | 14 => ⟨S50000x64, .f32⟩
  | 15 => ⟨S50000x64, .f32⟩
  | 16 => ⟨S_, .f32⟩
  | 17 => ⟨S50000x64, .f32⟩
  | 18 => ⟨S50000x64, .f32⟩
  | 19 => ⟨S50000, .i32⟩
  | 20 => ⟨S1x800000, .i32⟩
  | 21 => ⟨S800000, .i32⟩
  | 22 => ⟨S850000, .i32⟩
  | 23 => ⟨S1x800000, .i32⟩
  | 24 => ⟨S800000, .i32⟩
  | 25 => ⟨S850000, .i32⟩
  | 26 => ⟨S_, .f32⟩
  | 27 => ⟨S50000x16, .f32⟩
  | 28 => ⟨S850000x16, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000x64, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000x64, .f32⟩
  | 47 => ⟨S850000x144, .f32⟩
  | 48 => ⟨S_, .f32⟩
  | 49 => ⟨S50000x144, .f32⟩
  | 50 => ⟨S850000x1, .i32⟩
  | 51 => ⟨S50000x144, .f32⟩
  | 52 => ⟨S50000x64, .f32⟩
  | 53 => ⟨S1x64, .f32⟩
  | 54 => ⟨S50000x64, .f32⟩
  | 55 => ⟨S50000x64, .f32⟩
  | 56 => ⟨S50000x64, .f32⟩
  | 57 => ⟨S_, .f32⟩
  | 58 => ⟨S50000x64, .f32⟩
  | 59 => ⟨S50000x64, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x64, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000x64, .f32⟩
  | 78 => ⟨S850000x144, .f32⟩
  | 79 => ⟨S_, .f32⟩
  | 80 => ⟨S50000x144, .f32⟩
  | 81 => ⟨S850000x1, .i32⟩
  | 82 => ⟨S50000x144, .f32⟩
  | 83 => ⟨S50000x64, .f32⟩
  | 84 => ⟨S1x64, .f32⟩
  | 85 => ⟨S50000x64, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000x64, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x64, .f32⟩
  | 109 => ⟨S850000x144, .f32⟩
  | 110 => ⟨S_, .f32⟩
  | 111 => ⟨S50000x144, .f32⟩
  | 112 => ⟨S850000x1, .i32⟩
  | 113 => ⟨S50000x144, .f32⟩
  | 114 => ⟨S50000x64, .f32⟩
  | 115 => ⟨S1x64, .f32⟩
  | 116 => ⟨S50000x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x64, .f32⟩

abbrev hbmTy0_1 (i : Nat) : BufTy := match i % 128 with
  | 0 => ⟨S850000, .i32⟩
  | 1 => ⟨S850000x1, .i32⟩
  | 2 => ⟨S850000x64, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S850000x64, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000x64, .f32⟩
  | 21 => ⟨S850000x192, .f32⟩
  | 22 => ⟨S_, .f32⟩
  | 23 => ⟨S50000x192, .f32⟩
  | 24 => ⟨S850000x1, .i32⟩
  | 25 => ⟨S50000x192, .f32⟩
  | 26 => ⟨S50000x64, .f32⟩
  | 27 => ⟨S1x64, .f32⟩
  | 28 => ⟨S50000x64, .f32⟩
  | 29 => ⟨S50000x64, .f32⟩
  | 30 => ⟨S_, .f32⟩
  | 31 => ⟨S50000x64, .f32⟩
  | 32 => ⟨S50000x64, .f32⟩
  | 33 => ⟨S_, .f32⟩
  | 34 => ⟨S256x64, .f32⟩
  | 35 => ⟨S50000x1, .i32⟩
  | 36 => ⟨S256x64, .f32⟩
  | 37 => ⟨S256x1, .f32⟩
  | 38 => ⟨S1x1, .f32⟩
  | 39 => ⟨S256x1, .f32⟩
  | 40 => ⟨S256x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_c_4 : Ref sig .tc := ⟨.hbm, 60, rfl⟩
abbrev main_v38 : Ref sig .tc := ⟨.hbm, 61, rfl⟩
abbrev main_v39 : Ref sig .tc := ⟨.hbm, 62, rfl⟩
abbrev main_c_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_6 : Ref sig .tc := ⟨.hbm, 69, rfl⟩
abbrev main_v45 : Ref sig .tc := ⟨.hbm, 70, rfl⟩
abbrev main_v46 : Ref sig .tc := ⟨.hbm, 71, rfl⟩
abbrev main_c_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call2_cst : Ref sig .tc := ⟨.hbm, 88, rfl⟩
abbrev main_call2_v0 : Ref sig .tc := ⟨.hbm, 89, rfl⟩
abbrev main_v61 : Ref sig .tc := ⟨.hbm, 90, rfl⟩
abbrev main_c_9 : Ref sig .tc := ⟨.hbm, 91, rfl⟩
abbrev main_v62 : Ref sig .tc := ⟨.hbm, 92, rfl⟩
abbrev main_v63 : Ref sig .tc := ⟨.hbm, 93, rfl⟩
abbrev main_c_10 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_11 : Ref sig .tc := ⟨.hbm, 100, rfl⟩
abbrev main_v69 : Ref sig .tc := ⟨.hbm, 101, rfl⟩
abbrev main_v70 : Ref sig .tc := ⟨.hbm, 102, rfl⟩
abbrev main_c_12 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_13 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call3_cst : Ref sig .tc := ⟨.hbm, 119, rfl⟩
abbrev main_call3_v0 : Ref sig .tc := ⟨.hbm, 120, rfl⟩
abbrev main_v85 : Ref sig .tc := ⟨.hbm, 121, rfl⟩
abbrev main_c_14 : Ref sig .tc := ⟨.hbm, 122, rfl⟩
abbrev main_v86 : Ref sig .tc := ⟨.hbm, 123, rfl⟩
abbrev main_v87 : Ref sig .tc := ⟨.hbm, 124, rfl⟩
abbrev main_c_15 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_c_16 : Ref sig .tc := ⟨.hbm, 131, rfl⟩
abbrev main_v93 : Ref sig .tc := ⟨.hbm, 132, rfl⟩
abbrev main_v94 : Ref sig .tc := ⟨.hbm, 133, rfl⟩
abbrev main_c_17 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_18 : Ref sig .tc := ⟨.hbm, 140, rfl⟩
abbrev main_v100 : Ref sig .tc := ⟨.hbm, 141, rfl⟩
abbrev main_v101 : Ref sig .tc := ⟨.hbm, 142, rfl⟩
abbrev main_c_19 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_20 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_call4_cst : Ref sig .tc := ⟨.hbm, 158, rfl⟩
abbrev main_call4_v0 : Ref sig .tc := ⟨.hbm, 159, rfl⟩
abbrev main_v115 : Ref sig .tc := ⟨.hbm, 160, rfl⟩
abbrev main_cst_21 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000x16 : S_.BroadcastsInDim S50000x16 (![] : Fin 0 → Fin S50000x16.rank)
  concatenates_S800000x16_S50000x16_S850000x16_d0 : Shape.Concatenates [S800000x16, S50000x16] S850000x16 0
  bcast_S_S850000 : S_.BroadcastsInDim S850000 (![] : Fin 0 → Fin S850000.rank)
  bcast_S850000_S850000x1_0 : S850000.BroadcastsInDim S850000x1 (![0] : Fin 1 → Fin S850000x1.rank)
  concatenates_S850000x64_S850000x64_S850000x16_S850000x144_d1 : Shape.Concatenates [S850000x64, S850000x64, S850000x16] S850000x144 1
  bcast_S_S50000x144 : S_.BroadcastsInDim S50000x144 (![] : Fin 0 → Fin S50000x144.rank)
  concatenates_S850000x64_S850000x64_S850000x64_S850000x192_d1 : Shape.Concatenates [S850000x64, S850000x64, S850000x64] S850000x192 1
  bcast_S_S50000x192 : S_.BroadcastsInDim S50000x192 (![] : Fin 0 → Fin S50000x192.rank)
  bcast_S_S256x64 : S_.BroadcastsInDim S256x64 (![] : Fin 0 → Fin S256x64.rank)
  bcast_S50000_S50000x1_0 : S50000.BroadcastsInDim S50000x1 (![0] : Fin 1 → Fin S50000x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x144_S850000x1_S850000x144_1_0_0_1_wf : ScatterDims.WF S50000x144 S850000x1 S850000x144 [1] [0] [0] 1
  dot_S50000x144_S144x64_S50000x64_1_0_0_1_n_n_wf : DotDims.WF S50000x144 S144x64 S50000x64 [1] [0] [0] [1] [] []
  scatter_S50000x192_S850000x1_S850000x192_1_0_0_1_wf : ScatterDims.WF S50000x192 S850000x1 S850000x192 [1] [0] [0] 1
  dot_S50000x192_S192x64_S50000x64_1_0_0_1_n_n_wf : DotDims.WF S50000x192 S192x64 S50000x64 [1] [0] [0] [1] [] []
  scatter_S256x64_S50000x1_S50000x64_1_0_0_1_wf : ScatterDims.WF S256x64 S50000x1 S50000x64 [1] [0] [0] 1
  dot_S256x64_S64x1_S256x1_1_0_0_1_n_n_wf : DotDims.WF S256x64 S64x1 S256x1 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x144_S850000x1_S850000x144_1_0_0_1 : ScatterDims S50000x144 S850000x1 S850000x144 where
  updateWindowDims := [1]
  insertedWindowDims := [0]
  scatterDimsToOperandDims := [0]
  indexVectorDim := 1
  wf := scatter_S50000x144_S850000x1_S850000x144_1_0_0_1_wf
def dot_S50000x144_S144x64_S50000x64_1_0_0_1_n_n : DotDims S50000x144 S144x64 S50000x64 where
  lhsContracting := [1]
  rhsContracting := [0]
  lhsNonContracting := [0]
  rhsNonContracting := [1]
  lhsBatch := []
  rhsBatch := []
  wf := dot_S50000x144_S144x64_S50000x64_1_0_0_1_n_n_wf
def scatter_S50000x192_S850000x1_S850000x192_1_0_0_1 : ScatterDims S50000x192 S850000x1 S850000x192 where
  updateWindowDims := [1]
  insertedWindowDims := [0]
  scatterDimsToOperandDims := [0]
  indexVectorDim := 1
  wf := scatter_S50000x192_S850000x1_S850000x192_1_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.KB.Reg0.lean ====
import proofs.«426835_j41618233099040_1_alg».proof.Proof.Gen.Kernel.Launch
import proofs.«426835_j41618233099040_1_alg».proof.Proof.Gen.Kernel.Skeleton
import proofs.«426835_j41618233099040_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0
abbrev r0_3 : Rect S5000x64 := Rect.unit (s := S5000x64) ![0, 0] S5000x64.size inb_S5000x64_S5000x64_0_0

def out0_3 (x0 : Vec F S5000x64 .f32) (x1 : Vec F S64x64 .f32) (x2 : Vec F S1x64 .f32) : Vec F S5000x64 .f32 :=
  View.canon [⟨r0_3, k0_pay1 (View.ld x0 r0_0) (View.ld x1 r0_1) (View.ld x2 r0_2)⟩]

theorem cover0_3 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

-- One symbolic run of the body: each input read whole, the output stored whole once.
set_option maxHeartbeats 1000000 in
theorem sound_kernel0 (c : Dev nD) (E : Set ℕ) (i : grid0.Coords) (arg1 : Memref sig .tc .vmem S5000x64 .f32) (harg1 : arg1.IsWhole)
    (arg2 : Memref sig .tc .vmem S64x64 .f32) (harg2 : arg2.IsWhole) (arg3 : Memref sig .tc .vmem S1x64 .f32) (harg3 : arg3.IsWhole)
    (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__h0_kernel i arg1 harg1 arg2 harg2 arg3 harg3 arg4 harg4) K := by
  simp only [cc0__h0_kernel_eq_skeleton]; unfold cc0__h0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KB.Reg1.lean ====
import proofs.«426835_j41618233099040_1_alg».proof.Proof.Gen.Kernel.Launch
import proofs.«426835_j41618233099040_1_alg».proof.Proof.Gen.Kernel.Skeleton
import proofs.«426835_j41618233099040_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev rectA1 : Rect S5000x144 := Rect.unit (s := S5000x144) ![0, 0] S5000x144.size inb_S5000x144_S5000x144_0_0
abbrev rectW1 : Rect S144x64 := Rect.unit (s := S144x64) ![0, 0] S144x64.size inb_S144x64_S144x64_0_0
abbrev rectB1 : Rect S1x64 := Rect.unit (s := S1x64) ![0, 0] S1x64.size inb_S1x64_S1x64_0_0
abbrev rectH1 : Rect S5000x64 := Rect.unit (s := S5000x64) ![0, 0] S5000x64.size inb_S5000x64_S5000x64_0_0

def out1_4 (x0 : Vec F S5000x144 .f32) (x1 : Vec F S144x64 .f32) (x2 : Vec F S1x64 .f32) (x3 : Vec F S5000x64 .f32) : Vec F S5000x64 .f32 :=
  View.canon [⟨rectH1, k1_pay1 (View.ld x0 rectA1) (View.ld x1 rectW1) (View.ld x2 rectB1) (View.ld x3 rectH1)⟩]

theorem cover1_4 (p0 : Vec F S5000x64 .f32) (y : S5000x64.Idx) :
    ∃ pc ∈ ([⟨rectH1, p0⟩] : List (View.Piece (Elt F) S5000x64 .f32)), y ∈ pc.1.set :=
  View.cover_of_tiled [⟨rectH1, p0⟩] S5000x64.size (by rfl) y

-- One symbolic run of the body: each input read whole, the output stored whole once.
set_option maxHeartbeats 1000000 in
theorem sound_kernel1 (c : Dev nD) (E : Set ℕ) (i : grid1.Coords)
    (arg1 : Memref sig .tc .vmem S5000x144 .f32) (harg1 : arg1.IsWhole) (arg2 : Memref sig .tc .vmem S144x64 .f32) (harg2 : arg2.IsWhole)
    (arg3 : Memref sig .tc .vmem S1x64 .f32) (harg3 : arg3.IsWhole) (arg4 : Memref sig .tc .vmem S5000x64 .f32) (harg4 : arg4.IsWhole)
    (arg5 : Memref sig .tc .vmem S5000x64 .f32) (harg5 : arg5.IsWhole)
    (x0 : Vec F S5000x144 .f32) (x1 : Vec F S144x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__layer_kernel i arg1 harg1 arg2 harg2 arg3 harg3 arg4 harg4 arg5 harg5) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KB.Reg2.lean ====
import proofs.«426835_j41618233099040_1_alg».proof.Proof.Gen.Kernel.Launch
import proofs.«426835_j41618233099040_1_alg».proof.Proof.Gen.Kernel.Skeleton
import proofs.«426835_j41618233099040_1_alg».proof.Proof.Gen.Kernel.Points
import proofs.«426835_j41618233099040_1_alg».proof.Proof.KB.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev rectA2 : Rect S5000x144 := Rect.unit (s := S5000x144) ![0, 0] S5000x144.size inb_S5000x144_S5000x144_0_0
abbrev rectW2 : Rect S144x64 := Rect.unit (s := S144x64) ![0, 0] S144x64.size inb_S144x64_S144x64_0_0
abbrev rectB2 : Rect S1x64 := Rect.unit (s := S1x64) ![0, 0] S1x64.size inb_S1x64_S1x64_0_0
abbrev rectH2 : Rect S5000x64 := Rect.unit (s := S5000x64) ![0, 0] S5000x64.size inb_S5000x64_S5000x64_0_0

def out2_4 (x0 : Vec F S5000x144 .f32) (x1 : Vec F S144x64 .f32) (x2 : Vec F S1x64 .f32) (x3 : Vec F S5000x64 .f32) : Vec F S5000x64 .f32 :=
  View.canon [⟨rectH2, k2_pay1 (View.ld x0 rectA2) (View.ld x1 rectW2) (View.ld x2 rectB2) (View.ld x3 rectH2)⟩]

-- The body is region 1's, at the same shapes.
theorem sound_kernel2 (c : Dev nD) (E : Set ℕ) (i : grid2.Coords)
    (arg1 : Memref sig .tc .vmem S5000x144 .f32) (harg1 : arg1.IsWhole) (arg2 : Memref sig .tc .vmem S144x64 .f32) (harg2 : arg2.IsWhole)
    (arg3 : Memref sig .tc .vmem S1x64 .f32) (harg3 : arg3.IsWhole) (arg4 : Memref sig .tc .vmem S5000x64 .f32) (harg4 : arg4.IsWhole)
    (arg5 : Memref sig .tc .vmem S5000x64 .f32) (harg5 : arg5.IsWhole)
    (x0 : Vec F S5000x144 .f32) (x1 : Vec F S144x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__layer_kernel i arg1 harg1 arg2 harg2 arg3 harg3 arg4 harg4 arg5 harg5) K :=
  sound_kernel1 c E i arg1 harg1 arg2 harg2 arg3 harg3 arg4 harg4 arg5 harg5 x0 x1 x2 x3 K

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.KB.Reg3.lean ====
import proofs.«426835_j41618233099040_1_alg».proof.Proof.Gen.Kernel.Launch
import proofs.«426835_j41618233099040_1_alg».proof.Proof.Gen.Kernel.Skeleton
import proofs.«426835_j41618233099040_1_alg».proof.Proof.Gen.Kernel.Points
import proofs.«426835_j41618233099040_1_alg».proof.Proof.KB.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev rectA3 : Rect S5000x144 := Rect.unit (s := S5000x144) ![0, 0] S5000x144.size inb_S5000x144_S5000x144_0_0
abbrev rectW3 : Rect S144x64 := Rect.unit (s := S144x64) ![0, 0] S144x64.size inb_S144x64_S144x64_0_0
abbrev rectB3 : Rect S1x64 := Rect.unit (s := S1x64) ![0, 0] S1x64.size inb_S1x64_S1x64_0_0
abbrev rectH3 : Rect S5000x64 := Rect.unit (s := S5000x64) ![0, 0] S5000x64.size inb_S5000x64_S5000x64_0_0

def out3_4 (x0 : Vec F S5000x144 .f32) (x1 : Vec F S144x64 .f32) (x2 : Vec F S1x64 .f32) (x3 : Vec F S5000x64 .f32) : Vec F S5000x64 .f32 :=
  View.canon [⟨rectH3, k3_pay1 (View.ld x0 rectA3) (View.ld x1 rectW3) (View.ld x2 rectB3) (View.ld x3 rectH3)⟩]

-- The body is region 1's, at the same shapes.
theorem sound_kernel3 (c : Dev nD) (E : Set ℕ) (i : grid3.Coords)
    (arg1 : Memref sig .tc .vmem S5000x144 .f32) (harg1 : arg1.IsWhole) (arg2 : Memref sig .tc .vmem S144x64 .f32) (harg2 : arg2.IsWhole)
    (arg3 : Memref sig .tc .vmem S1x64 .f32) (harg3 : arg3.IsWhole) (arg4 : Memref sig .tc .vmem S5000x64 .f32) (harg4 : arg4.IsWhole)
    (arg5 : Memref sig .tc .vmem S5000x64 .f32) (harg5 : arg5.IsWhole)
    (x0 : Vec F S5000x144 .f32) (x1 : Vec F S144x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__layer_kernel i arg1 harg1 arg2 harg2 arg3 harg3 arg4 harg4 arg5 harg5) K :=
  sound_kernel1 c E i arg1 harg1 arg2 harg2 arg3 harg3 arg4 harg4 arg5 harg5 x0 x1 x2 x3 K

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.KB.Reg4.lean ====
import proofs.«426835_j41618233099040_1_alg».proof.Proof.Gen.Kernel.Launch
import proofs.«426835_j41618233099040_1_alg».proof.Proof.Gen.Kernel.Skeleton
import proofs.«426835_j41618233099040_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S5000x192 := Rect.unit (s := S5000x192) ![0, 0] S5000x192.size inb_S5000x192_S5000x192_0_0
abbrev r4_1 : Rect S192x64 := Rect.unit (s := S192x64) ![0, 0] S192x64.size inb_S192x64_S192x64_0_0
abbrev r4_2 : Rect S1x64 := Rect.unit (s := S1x64) ![0, 0] S1x64.size inb_S1x64_S1x64_0_0
abbrev r4_3 : Rect S5000x64 := Rect.unit (s := S5000x64) ![0, 0] S5000x64.size inb_S5000x64_S5000x64_0_0

def out4_3 (x0 : Vec F S5000x192 .f32) (x1 : Vec F S192x64 .f32) (x2 : Vec F S1x64 .f32) : Vec F S5000x64 .f32 :=
  View.canon [⟨r4_3, k4_pay1 (View.ld x0 r4_0) (View.ld x1 r4_1) (View.ld x2 r4_2)⟩]

theorem cover4_3 (p0 : Vec F S5000x64 .f32) (y : S5000x64.Idx) :
    ∃ pc ∈ ([⟨r4_3, p0⟩] : List (View.Piece (Elt F) S5000x64 .f32)), y ∈ pc.1.set :=
  View.cover_of_tiled [⟨r4_3, p0⟩] S5000x64.size (by rfl) y

-- One symbolic run of the body: each input read whole, the output stored whole once.
set_option maxHeartbeats 1000000 in
theorem sound_kernel4 (c : Dev nD) (E : Set ℕ) (i : grid4.Coords) (arg1 : Memref sig .tc .vmem S5000x192 .f32) (harg1 : arg1.IsWhole)
    (arg2 : Memref sig .tc .vmem S192x64 .f32) (harg2 : arg2.IsWhole) (arg3 : Memref sig .tc .vmem S1x64 .f32) (harg3 : arg3.IsWhole)
    (arg4 : Memref sig .tc .vmem S5000x64 .f32) (harg4 : arg4.IsWhole)
    (x0 : Vec F S5000x192 .f32) (x1 : Vec F S192x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__outmsg_kernel i arg1 harg1 arg2 harg2 arg3 harg3 arg4 harg4) K := by
  simp only [cc4__outmsg_kernel_eq_skeleton]; unfold cc4__outmsg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.Kernel.Frame

end
-- ==== Proof.KB.Reg5.lean ====
import proofs.«426835_j41618233099040_1_alg».proof.Proof.Gen.Kernel.Launch
import proofs.«426835_j41618233099040_1_alg».proof.Proof.Gen.Kernel.Skeleton
import proofs.«426835_j41618233099040_1_alg».proof.Proof.Gen.Kernel.Points
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val % 10 = 0 :=
  (by decide +kernel : ∀ t : Fin grid5.N, cond5_0 (grid5.coords t) ↔ t.val % 10 = 0)

abbrev cond5_1 (i : grid5.Coords) : Prop := k5_cond2 i = 1#1
theorem hcond5_1 : ∀ t : Fin cfg5.N, cond5_1 (grid5.coords t) ↔ t.val % 10 = 9 :=
  (by decide +kernel : ∀ t : Fin grid5.N, cond5_1 (grid5.coords t) ↔ t.val % 10 = 9)

theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel

theorem liveAt5_4 : ∀ t : Fin cfg5.N, cond5_1 (grid5.coords t) → cfg5.idle 4 (grid5.coords t) = false := by decide +kernel

abbrev scM5 : Memref sig .tc .vmem S256x64 .f32 := Memref.whole cc5_scratch0

theorem PhiA5_eq (c : Dev nD) :
    (Pipeline.ΦA spec5 c : sProp 𝕄)
      = iprop(iprop(iprop((∃ d, owns (c : Thread nD τ) scM5 fullShare d)) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

theorem hz2 : (![0, 0] : Fin 2 → Nat) = fun _ => 0 := funext fun a => by fin_cases a <;> rfl

theorem cover_head5 {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set := by
  subst h
  exact ⟨_, List.mem_cons_self .., by show y ∈ (Rect.whole S).set; rw [Rect.set_whole]; exact Finset.mem_univ y⟩

set_option maxHeartbeats 1000000 in
theorem sound_kernel5_A (c : Dev nD) (E : Set ℕ) (i : grid5.Coords)
    (arg1 : Memref sig .tc .vmem S5000x64 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S256x1 .f32) (harg5 : arg5.IsWhole) (arg6 : Memref sig .tc .vmem S256x64 .f32) (harg6 : arg6.IsWhole)
    (hc0 : cond5_0 i) (hc1 : ¬cond5_1 i)
    (x0 : Vec F S5000x64 .f32) (x1 : Vec F S5000x1 .i32) (x2 : Vec F S64x1 .f32) (x3 : Vec F S1x1 .f32) (xi4 : Vec F S256x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
            ∗ owns (c : Thread nD τ) arg6 fullShare (k5_pay2 x1 x0 k5_pay1)) -∗ K ⟨⟩))
      ⊢ wp frame (wpE (defs₀ (F := F)) Variants.none c none) E (cc5__pool_kernel i arg1 harg1 arg2 harg2 arg3 harg3 arg4 harg4 arg5 harg5 arg6 harg6) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_run_names
  rw [View.read_writes_eq_canon _ _ _ (cover_head5 hz2 _ _ _), View.canon_cons_unit_zero hz2, View.readCov_unit_zero (S := S256x64) _ hz2]
  simp only [View.readAt_eq_ld, View.ld_unit_zero (S := S5000x1) hz2, View.ld_unit_zero (S := S5000x64) hz2, View.ld_unit_zero (S := S256x64) hz2, View.ld_unit_zero (S := S64x1) hz2, View.ld_unit_zero (S := S1x1) hz2]

set_option maxHeartbeats 1000000 in
theorem sound_kernel5_B (c : Dev nD) (E : Set ℕ) (i : grid5.Coords)
    (arg1 : Memref sig .tc .vmem S5000x64 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S256x1 .f32) (harg5 : arg5.IsWhole) (arg6 : Memref sig .tc .vmem S256x64 .f32) (harg6 : arg6.IsWhole)
    (hc0 : ¬cond5_0 i) (hc1 : ¬cond5_1 i)
    (x0 : Vec F S5000x64 .f32) (x1 : Vec F S5000x1 .i32) (x2 : Vec F S64x1 .f32) (x3 : Vec F S1x1 .f32) (xi4 : Vec F S256x1 .f32) (xs : Vec F S256x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4 ∗ owns (c : Thread nD τ) arg6 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
            ∗ owns (c : Thread nD τ) arg6 fullShare (k5_pay2 x1 x0 xs)) -∗ K ⟨⟩))
      ⊢ wp frame (wpE (defs₀ (F := F)) Variants.none c none) E (cc5__pool_kernel i arg1 harg1 arg2 harg2 arg3 harg3 arg4 harg4 arg5 harg5 arg6 harg6) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_run_names
  rw [View.read_writes_eq_canon _ _ _ (cover_head5 hz2 _ _ _), View.canon_unit_zero hz2]
  simp only [View.readAt_eq_ld, View.ld_unit_zero (S := S5000x1) hz2, View.ld_unit_zero (S := S5000x64) hz2, View.ld_unit_zero (S := S256x64) hz2, View.ld_unit_zero (S := S64x1) hz2, View.ld_unit_zero (S := S1x1) hz2]

set_option maxHeartbeats 1000000 in
theorem sound_kernel5_C (c : Dev nD) (E : Set ℕ) (i : grid5.Coords)
    (arg1 : Memref sig .tc .vmem S5000x64 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S256x1 .f32) (harg5 : arg5.IsWhole) (arg6 : Memref sig .tc .vmem S256x64 .f32) (harg6 : arg6.IsWhole)
    (hc0 : ¬cond5_0 i) (hc1 : cond5_1 i)
    (x0 : Vec F S5000x64 .f32) (x1 : Vec F S5000x1 .i32) (x2 : Vec F S64x1 .f32) (x3 : Vec F S1x1 .f32) (xs : Vec F S256x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k5_pay3 x2 (k5_pay2 x1 x0 xs) x3)
            ∗ owns (c : Thread nD τ) arg6 fullShare (k5_pay2 x1 x0 xs)) -∗ K ⟨⟩))
      ⊢ wp frame (wpE (defs₀ (F := F)) Variants.none c none) E (cc5__pool_kernel i arg1 harg1 arg2 harg2 arg3 harg3 arg4 harg4 arg5 harg5 arg6 harg6) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (cover_head5 hz2 _ _ _), View.canon_unit_zero hz2, View.readCov_unit_zero (S := S256x64) _ hz2]
    simp only [View.readAt_eq_ld, View.ld_unit_zero (S := S5000x1) hz2, View.ld_unit_zero (S := S5000x64) hz2, View.ld_unit_zero (S := S256x64) hz2, View.ld_unit_zero (S := S64x1) hz2, View.ld_unit_zero (S := S1x1) hz2]
  iexists _; isplitr
  swap; · iexact HS
  ipureintro
  sl_unfold_run_names
  rw [View.read_writes_eq_canon _ _ _ (cover_head5 hz2 _ _ _), View.canon_unit_zero hz2]
  simp only [View.readAt_eq_ld, View.ld_unit_zero (S := S5000x1) hz2, View.ld_unit_zero (S := S5000x64) hz2, View.ld_unit_zero (S := S256x64) hz2, View.ld_unit_zero (S := S64x1) hz2, View.ld_unit_zero (S := S1x1) hz2]

def acc5 (c : Dev nD) : (n : ℕ) → n < cfg5.N → Vec F S256x64 .f32
  | 0, hn => k5_pay2 (iblk5 V c 1 ⟨0, hn⟩) (iblk5 V c 0 ⟨0, hn⟩) k5_pay1
  | n + 1, hn => k5_pay2 (iblk5 V c 1 ⟨n + 1, hn⟩) (iblk5 V c 0 ⟨n + 1, hn⟩) (acc5 c n (Nat.lt_of_succ_lt hn))

theorem acc5_first (c : Dev nD) (t : Fin cfg5.N) (h : t.val = 0) :
    acc5 V c t.val t.isLt = k5_pay2 (iblk5 V c 1 t) (iblk5 V c 0 t) k5_pay1 := by
  obtain ⟨n, hn⟩ := t
  cases n with
  | zero => rfl
  | succ n => exact absurd h (Nat.succ_ne_zero _)

theorem acc5_later (c : Dev nD) (t : Fin cfg5.N) (h : t.val ≠ 0) :
    acc5 V c t.val t.isLt = k5_pay2 (iblk5 V c 1 t) (iblk5 V c 0 t) (acc5 V c (t.val - 1) (Nat.lt_of_le_of_lt (Nat.sub_le _ _) t.isLt)) := by
  obtain ⟨n, hn⟩ := t
  cases n with
  | zero => exact absurd rfl h
  | succ n => rfl

def PhiS5 (c : Dev nD) : (n : ℕ) → n ≤ cfg5.N → sProp 𝕄
  | 0, _ => Pipeline.ΦA spec5 c
  | n + 1, hn => iprop(iprop(owns (c : Thread nD τ) scM5 fullShare (acc5 V c n hn) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare (acc5 V c n hn) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5 fullShare (acc5 V c (n - 1) (by omega)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => k5_pay3 (iblk5 V c 2 t) (acc5 V c t.val t.isLt) (iblk5 V c 3 t)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = k5_pay3 (iblk5 V c 2 t) (acc5 V c t.val t.isLt) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  have hN : t.val < 10 := lt_of_lt_of_eq t.isLt (show cfg5.N = 10 from N_5)
  rw [show (dat5 V c).leavesExact 0 t = owns (c : Thread nD τ) (st5_0 t) fullShare ((dat5 V c).after 0 t) from rfl, after5_0]
  rw [show (dat5 V c).leavesExact 1 t = owns (c : Thread nD τ) (st5_1 t) fullShare ((dat5 V c).after 1 t) from rfl, after5_1]
  rw [show (dat5 V c).leavesExact 2 t = owns (c : Thread nD τ) (st5_2 t) fullShare ((dat5 V c).after 2 t) from rfl, after5_2]
  rw [show (dat5 V c).leavesExact 3 t = owns (c : Thread nD τ) (st5_3 t) fullShare ((dat5 V c).after 3 t) from rfl, after5_3]
  by_cases h9 : t.val % 10 = 9
  · have hz : t.val ≠ 0 := by omega
    have h0 : ¬t.val % 10 = 0 := by omega
    rw [show (dat5 V c).leavesExact 4 t = owns (c : Thread nD τ) (st5_4 t) fullShare ((dat5 V c).after 4 t) from by
      unfold Dat.leavesExact; rw [liveAt5_4 t ((hcond5_1 t).mpr h9)], after5_4]
    rw [acc5_later V c t hz, PhiS5_castSucc V c t, PhiS5_pos V c _ _ hz]
    iintro ⟨⟨⟨HS, HR⟩, Hg⟩, Ho, ⟨%d0, H0⟩, ⟨%d1, H1⟩, ⟨%d2, H2⟩, ⟨%d3, H3⟩, ⟨%d4, H4⟩⟩
    iapply (sound_kernel5_C c Set.univ (grid5.coords t) _ _ _ _ _ _ _ _ _ _ _ _ (fun h => h0 ((hcond5_0 t).mp h)) ((hcond5_1 t).mpr h9) (iblk5 V c 0 t) (iblk5 V c 1 t) (iblk5 V c 2 t) (iblk5 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [Dat.leavesExact_idle (dat5 V c) 4 t (idleAt5_4 t (fun h => h9 ((hcond5_1 t).mp h))) (noFlush5_4 t (fun h => h9 ((hcond5_1 t).mp h)))]
    by_cases h0 : t.val % 10 = 0
    · have hz : t.val = 0 := by omega
      rw [acc5_first V c t hz, PhiS5_castSucc V c t, PhiS5_zero V c _ _ hz, PhiA5_eq]
      iintro ⟨⟨⟨HS, HR⟩, Hg⟩, Ho, ⟨%d0, H0⟩, ⟨%d1, H1⟩, ⟨%d2, H2⟩, ⟨%d3, H3⟩, ⟨%d4, H4⟩⟩
      iapply (sound_kernel5_A c Set.univ (grid5.coords t) _ _ _ _ _ _ _ _ _ _ _ _ ((hcond5_0 t).mpr h0) (fun h => h9 ((hcond5_1 t).mp h)) (iblk5 V c 0 t) (iblk5 V c 1 t) (iblk5 V c 2 t) (iblk5 V c 3 t) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · have hz : t.val ≠ 0 := fun e => h0 (by rw [e])
      rw [acc5_later V c t hz, PhiS5_castSucc V c t, PhiS5_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel5_B c Set.univ (grid5.coords t) _ _ _ _ _ _ _ _ _ _ _ _ (fun h => h0 ((hcond5_0 t).mp h)) (fun h => h9 ((hcond5_1 t).mp h)) (iblk5 V c 0 t) (iblk5 V c 1 t) (iblk5 V c 2 t) (iblk5 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS, HR⟩, Hg⟩
  isplitl [HS HR]
  · isplitl [HS]
    · iexists _; iexact HS
    iexact HR
  iexact Hg

theorem hout5 (c : Dev nD) : (dat5 V c).Φ (Fin.last cfg5.N) ⊢ Pipeline.ΦA spec5 c :=
  Phi_out5 V c _ (by rw [Fin.val_last]; have : cfg5.N = 10 := N_5; omega)

end Region5

end Cert.Kernel.Frame

end
-- ==== Proof.KB.Main.lean ====
import proofs.«426835_j41618233099040_1_alg».proof.Proof.KB.Reg0
import proofs.«426835_j41618233099040_1_alg».proof.Proof.KB.Reg1
import proofs.«426835_j41618233099040_1_alg».proof.Proof.KB.Reg2
import proofs.«426835_j41618233099040_1_alg».proof.Proof.KB.Reg3
import proofs.«426835_j41618233099040_1_alg».proof.Proof.KB.Reg4
import proofs.«426835_j41618233099040_1_alg».proof.Proof.KB.Reg5
import proofs.«426835_j41618233099040_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev U1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

theorem W1_of (c : Dev nD) (r : Ref sig .tc) (h : r ∉ hostOps0_W) : W1 m c (Proc.devRef .tc r) = W0 m c (Proc.devRef .tc r) :=
  StableHlo.after_of_writes_sub hostOps0 _ hostOps0_writes h

theorem W2_keep (c : Dev nD) (b : Ref sig .tc) (hb : b ≠ main_v1) : W2 m c (Proc.devRef .tc b) = W1 m c (Proc.devRef .tc b) := by
  by_cases h : ∃ w, Pipeline.arrRef spec0 w = b
  · obtain ⟨w, rfl⟩ := h
    rw [W2_arr]
    match w, hb with
    | ⟨0, _⟩, _ => exact ((dat0 (U1 m) c).arrAt_in 0 rfl _).trans (A_eq0 (U1 m) c 0)
    | ⟨1, _⟩, _ => exact ((dat0 (U1 m) c).arrAt_in 1 rfl _).trans (A_eq0 (U1 m) c 1)
    | ⟨2, _⟩, _ => exact ((dat0 (U1 m) c).arrAt_in 2 rfl _).trans (A_eq0 (U1 m) c 2)
    | ⟨3, _⟩, hb => exact absurd rfl hb
    | ⟨n + 4, h⟩, _ => exact absurd h (Nat.not_lt.2 (Nat.le_add_left _ _))
  · exact W2_of_ne m c b (fun w e => h ⟨w, e⟩)

abbrev W3 : Dev nD → Valuation τ sig (Elt F) := fun c => StableHlo.after hostOps1 (W2 m c)

abbrev U3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

theorem W3_of (c : Dev nD) (r : Ref sig .tc) (h : r ∉ hostOps1_W) : W3 m c (Proc.devRef .tc r) = W2 m c (Proc.devRef .tc r) :=
  StableHlo.after_of_writes_sub hostOps1 _ hostOps1_writes h

theorem W4_keep (c : Dev nD) (b : Ref sig .tc) (hb : b ≠ main_v43) : W4 m c (Proc.devRef .tc b) = W3 m c (Proc.devRef .tc b) := by
  by_cases h : ∃ w, Pipeline.arrRef spec1 w = b
  · obtain ⟨w, rfl⟩ := h
    rw [W4_arr]
    match w, hb with
    | ⟨0, _⟩, _ => exact ((dat1 (U3 m) c).arrAt_in 0 rfl _).trans (A_eq1 (U3 m) c 0)
    | ⟨1, _⟩, _ => exact ((dat1 (U3 m) c).arrAt_in 1 rfl _).trans (A_eq1 (U3 m) c 1)
    | ⟨2, _⟩, _ => exact ((dat1 (U3 m) c).arrAt_in 2 rfl _).trans (A_eq1 (U3 m) c 2)
    | ⟨3, _⟩, _ => exact ((dat1 (U3 m) c).arrAt_in 3 rfl _).trans (A_eq1 (U3 m) c 3)
    | ⟨4, _⟩, hb => exact absurd rfl hb
    | ⟨n + 5, h⟩, _ => exact absurd h (Nat.not_lt.2 (Nat.le_add_left _ _))
  · exact W4_of_ne m c b (fun w e => h ⟨w, e⟩)

abbrev W5 : Dev nD → Valuation τ sig (Elt F) := fun c => StableHlo.after hostOps2 (W4 m c)

abbrev U5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

theorem W5_of (c : Dev nD) (r : Ref sig .tc) (h : r ∉ hostOps2_W) : W5 m c (Proc.devRef .tc r) = W4 m c (Proc.devRef .tc r) :=
  StableHlo.after_of_writes_sub hostOps2 _ hostOps2_writes h

theorem W6_keep (c : Dev nD) (b : Ref sig .tc) (hb : b ≠ main_v58) : W6 m c (Proc.devRef .tc b) = W5 m c (Proc.devRef .tc b) := by
  by_cases h : ∃ w, Pipeline.arrRef spec2 w = b
  · obtain ⟨w, rfl⟩ := h
    rw [W6_arr]
    match w, hb with
    | ⟨0, _⟩, _ => exact ((dat2 (U5 m) c).arrAt_in 0 rfl _).trans (A_eq2 (U5 m) c 0)
    | ⟨1, _⟩, _ => exact ((dat2 (U5 m) c).arrAt_in 1 rfl _).trans (A_eq2 (U5 m) c 1)
    | ⟨2, _⟩, _ => exact ((dat2 (U5 m) c).arrAt_in 2 rfl _).trans (A_eq2 (U5 m) c 2)
    | ⟨3, _⟩, _ => exact ((dat2 (U5 m) c).arrAt_in 3 rfl _).trans (A_eq2 (U5 m) c 3)
    | ⟨4, _⟩, hb => exact absurd rfl hb
    | ⟨n + 5, h⟩, _ => exact absurd h (Nat.not_lt.2 (Nat.le_add_left _ _))
  · exact W6_of_ne m c b (fun w e => h ⟨w, e⟩)

abbrev W7 : Dev nD → Valuation τ sig (Elt F) := fun c => StableHlo.after hostOps3 (W6 m c)

abbrev U7 : (c : Dev nD) → (b : Ref sig .tc) → Buf (Elt F) ((c : Thread nD τ).loc b) := fun c b => W7 m c b

def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)

theorem W7_of (c : Dev nD) (r : Ref sig .tc) (h : r ∉ hostOps3_W) : W7 m c (Proc.devRef .tc r) = W6 m c (Proc.devRef .tc r) :=
  StableHlo.after_of_writes_sub hostOps3 _ hostOps3_writes h

theorem W8_keep (c : Dev nD) (b : Ref sig .tc) (hb : b ≠ main_v73) : W8 m c (Proc.devRef .tc b) = W7 m c (Proc.devRef .tc b) := by
  by_cases h : ∃ w, Pipeline.arrRef spec3 w = b
  · obtain ⟨w, rfl⟩ := h
    rw [W8_arr]
    match w, hb with
    | ⟨0, _⟩, _ => exact ((dat3 (U7 m) c).arrAt_in 0 rfl _).trans (A_eq3 (U7 m) c 0)
    | ⟨1, _⟩, _ => exact ((dat3 (U7 m) c).arrAt_in 1 rfl _).trans (A_eq3 (U7 m) c 1)
    | ⟨2, _⟩, _ => exact ((dat3 (U7 m) c).arrAt_in 2 rfl _).trans (A_eq3 (U7 m) c 2)
    | ⟨3, _⟩, _ => exact ((dat3 (U7 m) c).arrAt_in 3 rfl _).trans (A_eq3 (U7 m) c 3)
    | ⟨4, _⟩, hb => exact absurd rfl hb
    | ⟨n + 5, h⟩, _ => exact absurd h (Nat.not_lt.2 (Nat.le_add_left _ _))
  · exact W8_of_ne m c b (fun w e => h ⟨w, e⟩)

abbrev W9 : Dev nD → Valuation τ sig (Elt F) := fun c => StableHlo.after hostOps4 (W8 m c)

abbrev U9 : (c : Dev nD) → (b : Ref sig .tc) → Buf (Elt F) ((c : Thread nD τ).loc b) := fun c b => W9 m c b

def W10 (c : Dev nD) : Valuation τ sig (Elt F) :=
  Pipeline.withArrays spec4 c (W9 m c) fun w => (dat4 (U9 m) c).arrAt w cfg4.N
theorem W10_arr (c : Dev nD) (w : Fin cfg4.W) :
    W10 m c (Proc.devRef .tc (Pipeline.arrRef spec4 w)) = (dat4 (U9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev U10 : (c : Dev nD) → (b : Ref sig .tc) → Buf (Elt F) ((c : Thread nD τ).loc b) := fun c b => W10 m c b
theorem hF4 (c : Dev nD) (w : Fin cfg4.W) : (dat4 (U9 m) c).arrAt w cfg4.N = U10 m c (Pipeline.arrRef spec4 w) :=
  (W10_arr m c w).symm
theorem hrest4 (c : Dev nD) : ∀ b, b ∉ Finset.univ.image (Pipeline.arrRef spec4) → U10 m c b = U9 m c b :=
  fun b hb => W10_of_ne m c b fun w e => hb (Finset.mem_image.mpr ⟨w, Finset.mem_univ _, e⟩)

theorem W9_of (c : Dev nD) (r : Ref sig .tc) (h : r ∉ hostOps4_W) : W9 m c (Proc.devRef .tc r) = W8 m c (Proc.devRef .tc r) :=
  StableHlo.after_of_writes_sub hostOps4 _ hostOps4_writes h

theorem W10_keep (c : Dev nD) (b : Ref sig .tc) (hb : b ≠ main_v88) : W10 m c (Proc.devRef .tc b) = W9 m c (Proc.devRef .tc b) := by
  by_cases h : ∃ w, Pipeline.arrRef spec4 w = b
  · obtain ⟨w, rfl⟩ := h
    rw [W10_arr]
    match w, hb with
    | ⟨0, _⟩, _ => exact ((dat4 (U9 m) c).arrAt_in 0 rfl _).trans (A_eq4 (U9 m) c 0)
    | ⟨1, _⟩, _ => exact ((dat4 (U9 m) c).arrAt_in 1 rfl _).trans (A_eq4 (U9 m) c 1)
    | ⟨2, _⟩, _ => exact ((dat4 (U9 m) c).arrAt_in 2 rfl _).trans (A_eq4 (U9 m) c 2)
    | ⟨3, _⟩, hb => exact absurd rfl hb
    | ⟨n + 4, h⟩, _ => exact absurd h (Nat.not_lt.2 (Nat.le_add_left _ _))
  · exact W10_of_ne m c b (fun w e => h ⟨w, e⟩)

abbrev W11 : Dev nD → Valuation τ sig (Elt F) := fun c => StableHlo.after hostOps5 (W10 m c)

abbrev U11 : (c : Dev nD) → (b : Ref sig .tc) → Buf (Elt F) ((c : Thread nD τ).loc b) := fun c b => W11 m c b

def W12 (c : Dev nD) : Valuation τ sig (Elt F) :=
  Pipeline.withArrays spec5 c (W11 m c) fun w => (dat5 (U11 m) c).arrAt w cfg5.N
theorem W12_arr (c : Dev nD) (w : Fin cfg5.W) :
    W12 m c (Proc.devRef .tc (Pipeline.arrRef spec5 w)) = (dat5 (U11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev U12 : (c : Dev nD) → (b : Ref sig .tc) → Buf (Elt F) ((c : Thread nD τ).loc b) := fun c b => W12 m c b
theorem hF5 (c : Dev nD) (w : Fin cfg5.W) : (dat5 (U11 m) c).arrAt w cfg5.N = U12 m c (Pipeline.arrRef spec5 w) :=
  (W12_arr m c w).symm
theorem hrest5 (c : Dev nD) : ∀ b, b ∉ Finset.univ.image (Pipeline.arrRef spec5) → U12 m c b = U11 m c b :=
  fun b hb => W12_of_ne m c b fun w e => hb (Finset.mem_image.mpr ⟨w, Finset.mem_univ _, e⟩)

theorem W11_of (c : Dev nD) (r : Ref sig .tc) (h : r ∉ hostOps5_W) : W11 m c (Proc.devRef .tc r) = W10 m c (Proc.devRef .tc r) :=
  StableHlo.after_of_writes_sub hostOps5 _ hostOps5_writes h

theorem W12_keep (c : Dev nD) (b : Ref sig .tc) (hb : b ≠ main_v91) : W12 m c (Proc.devRef .tc b) = W11 m c (Proc.devRef .tc b) := by
  by_cases h : ∃ w, Pipeline.arrRef spec5 w = b
  · obtain ⟨w, rfl⟩ := h
    rw [W12_arr]
    match w, hb with
    | ⟨0, _⟩, _ => exact ((dat5 (U11 m) c).arrAt_in 0 rfl _).trans (A_eq5 (U11 m) c 0)
    | ⟨1, _⟩, _ => exact ((dat5 (U11 m) c).arrAt_in 1 rfl _).trans (A_eq5 (U11 m) c 1)
    | ⟨2, _⟩, _ => exact ((dat5 (U11 m) c).arrAt_in 2 rfl _).trans (A_eq5 (U11 m) c 2)
    | ⟨3, _⟩, _ => exact ((dat5 (U11 m) c).arrAt_in 3 rfl _).trans (A_eq5 (U11 m) c 3)
    | ⟨4, _⟩, hb => exact absurd rfl hb
    | ⟨n + 5, h⟩, _ => exact absurd h (Nat.not_lt.2 (Nat.le_add_left _ _))
  · exact W12_of_ne m c b (fun w e => h ⟨w, e⟩)

-- A buffer that no host stretch writes and no region outputs ends as launched.
theorem W12_of (c : Dev nD) (b : Ref sig .tc) (h0 : b ∉ hostOps0_W) (r0 : b ≠ main_v1) (h1 : b ∉ hostOps1_W) (r1 : b ≠ main_v43) (h2 : b ∉ hostOps2_W) (r2 : b ≠ main_v58) (h3 : b ∉ hostOps3_W) (r3 : b ≠ main_v73) (h4 : b ∉ hostOps4_W) (r4 : b ≠ main_v88) (h5 : b ∉ hostOps5_W) (r5 : b ≠ main_v91) :
    W12 m c (Proc.devRef .tc b) = m ((c : Thread nD τ).loc b) :=
  (W12_keep m c b r5).trans <| (W11_of m c b h5).trans <| (W10_keep m c b r4).trans <| (W9_of m c b h4).trans <| (W8_keep m c b r3).trans <| (W7_of m c b h3).trans <| (W6_keep m c b r2).trans <| (W5_of m c b h2).trans <| (W4_keep m c b r1).trans <| (W3_of m c b h1).trans <| (W2_keep m c b r0).trans <| (W1_of m c b h0).trans <| rfl

abbrev argRefs : List (Ref sig .tc) :=
  [main_arg0, main_arg1, main_arg2, main_arg3, main_arg4, main_arg5, main_arg6, main_arg7, main_arg8, main_arg9, main_arg10, main_arg11]

theorem argRefs_unscoped : ∀ b ∈ (argRefs : List (Ref sig .tc)), ¬ (Proc.devRef .tc b : DevRef τ sig).isScoped := by decide

-- No item writes an argument.
theorem W12_arg (c : Dev nD) (b : Ref sig .tc) (hb : b ∈ argRefs) : W12 m c (Proc.devRef .tc b) = m ((c : Thread nD τ).loc b) := by
  have h : ∀ b ∈ (argRefs : List (Ref sig .tc)), b ∉ hostOps0_W ∧ b ≠ main_v1 ∧ b ∉ hostOps1_W ∧ b ≠ main_v43 ∧ b ∉ hostOps2_W ∧ b ≠ main_v58
      ∧ b ∉ hostOps3_W ∧ b ≠ main_v73 ∧ b ∉ hostOps4_W ∧ b ≠ main_v88 ∧ b ∉ hostOps5_W ∧ b ≠ main_v91 := by decide
  obtain ⟨h0, r0, h1, r1, h2, r2, h3, r3, h4, r4, h5, r5⟩ := h b hb
  exact W12_of m c b h0 r0 h1 r1 h2 r2 h3 r3 h4 r4 h5 r5

def pdats : (p : Fin 6) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
  | ⟨5, _⟩ => fun c => dat5 (U11 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m c) ∗ ∃ r, prngReg c r)

section
set_option backward.isDefEq.respectTransparency.types false

-- A kernel region as an item between two valuations: only its windows' arrays change.
def rgOf (p : Fin 6) (lf : Pipeline.LaunchFacts (nD := nD) (τ := τ) cfgs p) (W W' : Dev nD → Valuation τ sig (Elt F))
    (hbody : ∀ c, Pipeline.BodyObligationLoose (pdats m p c) defs₀ 𝒱₀ () Set.univ)
    (hq : ∀ c w, (pdats m p c).q w = fullShare) (howed : ∀ c t, (pdats m p c).owed t = 0)
    (hrec : ∀ c, (pdats m p c).recorded 0 = Set.univ)
    (hA : ∀ c w, (pdats m p c).A w = W c (Pipeline.arrRef (cfgs p).spec w))
    (hΦ₀ : ∀ c, Pipeline.ΦA (cfgs p).spec c ⊢ (pdats m p c).Φ 0)
    (hΦₙ : ∀ c, (pdats m p c).Φ (Fin.last _) ⊢ Pipeline.ΦA (cfgs p).spec c)
    (hF : ∀ c w, (pdats m p c).arrAt w (cfgs p).N = W' c (Pipeline.arrRef (cfgs p).spec w))
    (hrest : ∀ c b, b ∉ Finset.univ.image (Pipeline.arrRef (cfgs p).spec) → W' c b = W c b)
    (post : Dev nD → sProp 𝕄)
    (hpost : ∀ c : Dev nD, iprop(StableHlo.held (c : Thread nD τ) (Pipeline.ucRefs τ sig) (W' c) ∗ R c) ⊢ post c) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (W c) ∗ R c)
  post := post
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m) lf.win lf.arr_whole c
      ((pdats m p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%O, HO⟩; iexists O; isplitr; · ipureintro; exact fun _ _ => Or.inl (hrec c ▸ Set.mem_univ _)
      iexact HO
    isplitl [Hp]; · iexact Hp
    iexact Hrest
  hin c := by
    refine .trans ?_ (hΦ₀ c); unfold Pipeline.ΦA
    iintro ⟨Hp, -, Hr⟩
    isplitl [Hr]; · iexact Hr
    iexact Hp
  hout c := by
    rw [Pipeline.ownSems0_none]; refine (hΦₙ c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => W c b) (fun b => W' c b) ((pdats m p c).arrAt · (cfgs p).N) (hF c) (hrest c)
    rw [Pipeline.unscopedBufs_held] at hjoin
    iintro ⟨Ha, HO, HY, Hrest⟩
    imodintro
    iapply (hpost c)
    isplitl [Ha Hrest]
    · iapply hjoin; isplitl [Ha] <;> iassumption
    isplitl [HY]; · iexact HY
    unfold Pipeline.Dat.owesAt Pipeline.owesWithin; rw [howed c]
    icases HO with ⟨%O, -, HO⟩; iexists O; iexact HO

def rg0 : Pipeline.RegionSeg (pcfgs (F := F)) adm (pdats m) () defs₀ 𝒱₀ L lv 0 :=
  rgOf m 0 launch0 (W1 m) (W2 m) (fun c => (body_obligation0 (U1 m) c).loose) (fun _ _ => rfl) (fun _ _ => rfl)
    (fun _ => rfl) (fun _ _ => rfl) (fun _ => .rfl) (fun _ => .rfl) (hF0 m) (hrest0 m) _ fun _ => .rfl

def rg1 : Pipeline.RegionSeg (pcfgs (F := F)) adm (pdats m) () defs₀ 𝒱₀ L lv 1 :=
  rgOf m 1 launch1 (W3 m) (W4 m) (fun c => (body_obligation1 (U3 m) c).loose) (fun _ _ => rfl) (fun _ _ => rfl)
    (fun _ => rfl) (fun _ _ => rfl) (fun _ => .rfl) (fun _ => .rfl) (hF1 m) (hrest1 m) _ fun _ => .rfl

def rg2 : Pipeline.RegionSeg (pcfgs (F := F)) adm (pdats m) () defs₀ 𝒱₀ L lv 2 :=
  rgOf m 2 launch2 (W5 m) (W6 m) (fun c => (body_obligation2 (U5 m) c).loose) (fun _ _ => rfl) (fun _ _ => rfl)
    (fun _ => rfl) (fun _ _ => rfl) (fun _ => .rfl) (fun _ => .rfl) (hF2 m) (hrest2 m) _ fun _ => .rfl

def rg3 : Pipeline.RegionSeg (pcfgs (F := F)) adm (pdats m) () defs₀ 𝒱₀ L lv 3 :=
  rgOf m 3 launch3 (W7 m) (W8 m) (fun c => (body_obligation3 (U7 m) c).loose) (fun _ _ => rfl) (fun _ _ => rfl)
    (fun _ => rfl) (fun _ _ => rfl) (fun _ => .rfl) (fun _ => .rfl) (hF3 m) (hrest3 m) _ fun _ => .rfl

def rg4 : Pipeline.RegionSeg (pcfgs (F := F)) adm (pdats m) () defs₀ 𝒱₀ L lv 4 :=
  rgOf m 4 launch4 (W9 m) (W10 m) (fun c => (body_obligation4 (U9 m) c).loose) (fun _ _ => rfl) (fun _ _ => rfl)
    (fun _ => rfl) (fun _ _ => rfl) (fun _ => .rfl) (fun _ => .rfl) (hF4 m) (hrest4 m) _ fun _ => .rfl

def rg5 : Pipeline.RegionSeg (pcfgs (F := F)) adm (pdats m) () defs₀ 𝒱₀ L lv 5 :=
  rgOf m 5 launch5 (W11 m) (W12 m) (fun c => (body_obligation5 (U11 m) c).loose) (fun _ _ => rfl) (fun _ _ => rfl)
    (fun _ => rfl) (fun _ _ => rfl) (hin5 (U11 m)) (hout5 (U11 m)) (hF5 m) (hrest5 m)
    (fun c => iprop(Tₙ m c ∗ ∃ W, owes (c : Thread nD τ) (0 : CellTallies nD τ sig Unit) W)) fun _ => BI.sep_assoc'

end

abbrev items : List (Pipeline.Seg (pcfgs (F := F)) adm (pdats m) () defs₀ 𝒱₀ L lv) :=
  [ .host (hseg hostOps0 hostOps0_sub hostOps0_fresh (W0 m)),
    .region (rg0 m),
    .host (hseg hostOps1 hostOps1_sub hostOps1_fresh (W2 m)),
    .region (rg1 m),
    .host (hseg hostOps2 hostOps2_sub hostOps2_fresh (W4 m)),
    .region (rg2 m),
    .host (hseg hostOps3 hostOps3_sub hostOps3_fresh (W6 m)),
    .region (rg3 m),
    .host (hseg hostOps4 hostOps4_sub hostOps4_fresh (W8 m)),
    .region (rg4 m),
    .host (hseg hostOps5 hostOps5_sub hostOps5_fresh (W10 m)),
    .region (rg5 m) ]

theorem main_run (c : Dev nD) : main (F := F) c = Pipeline.Seg.run (items m) := (main_chain c).trans (by chain_rfl)

-- The twelve items chained: every execution ends with each unscoped buffer at the last valuation.
set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

-- The arguments are among the buffers no item writes.
theorem frame (ρ : Dev nD → PrngReg) : θ_run defs (onTc (τ := τ) (main (F := F))) ⟨m, fun _ => 0, ρ⟩ (fun r => ∀ c : Dev nD, ∀ b ∈ argRefs,
      r.2.mem ((c.tc : Thread nD τ).loc b) = m ((c.tc : Thread nD τ).loc b)) :=
  (θ_run defs _ _).mono (fun r h c b hb => (h c _ (mem_uc b (argRefs_unscoped b hb))).trans (W12_arg m c b hb)) (run_all m ρ)

end Cert.Kernel.Frame

end
-- ==== Proof.Spec.lean ====
import proofs.«426835_j41618233099040_1_alg».proof.Proof.Gen.ReferenceIdeal
import Idealize.ShloMosaic.PureOps.Ideal

noncomputable section

namespace Cert.Spec

open Idealize.ShloMosaic Cert.ReferenceIdeal Cert.ReferenceIdeal.Gen

variable {F : FTy → Type} [FloatOps F]

def row64 (b : FVec F S64 .f32) : FVec F S1x64 .f32 := broadcastInDim S1x64 ![1] bcast_S64_S1x64_1 b

def zero64 : FVec F S50000x64 .f32 := broadcastInDim S50000x64 ![] bcast_S_S50000x64 (constant S_ .f32 0x00000000#32)

def src (ei : IVec S2x800000 32) : IVec S850000 32 :=
  concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0

def dst (ei : IVec S2x800000 32) : IVec S850000 32 :=
  concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

def ea (a : FVec F S800000x16 .f32) : FVec F S850000x16 .f32 :=
  concatenate S850000x16 0 [⟨S800000x16, a⟩, ⟨S50000x16, broadcastInDim S50000x16 ![] bcast_S_S50000x16 (constant S_ .f32 0x3F800000#32)⟩] concatenates_S800000x16_S50000x16_S850000x16_d0

def wrapCol (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

def col (v : IVec S850000 32) : IVec S850000x1 32 := broadcastInDim S850000x1 ![0] bcast_S850000_S850000x1_0 v

def rowsAt (h : FVec F S50000x64 .f32) (v : IVec S850000 32) : FVec F S850000x64 .f32 :=
  Host.gather gather_S50000x64_S850000x1_S850000x64_1_0_n_n_0_1_164 h (wrapCol v)

def h0 (x : FVec F S50000x64 .f32) (W : FVec F S64x64 .f32) (b2 : FVec F S1x64 .f32) : FVec F S50000x64 .f32 :=
  maximumf (addf (Host.dotGeneral dot_S50000x64_S64x64_S50000x64_1_0_0_1_n_n none x W)
    (broadcastInDim S50000x64 ![0, 1] bcast_S1x64_S50000x64_0_1 b2)) zero64

def agg (h : FVec F S50000x64 .f32) (dst src : IVec S850000 32) (ea : FVec F S850000x16 .f32) : FVec F S50000x144 .f32 :=
  Host.scatterAdd scatter_S50000x144_S850000x1_S850000x144_1_0_0_1
    (broadcastInDim S50000x144 ![] bcast_S_S50000x144 (constant S_ .f32 0x00000000#32)) (col dst)
    (concatenate S850000x144 1 [⟨S850000x64, rowsAt h dst⟩, ⟨S850000x64, rowsAt h src⟩, ⟨S850000x16, ea⟩] concatenates_S850000x64_S850000x64_S850000x16_S850000x144_d1)

def layer (a : FVec F S50000x144 .f32) (W : FVec F S144x64 .f32) (b2 : FVec F S1x64 .f32) (h0 : FVec F S50000x64 .f32) : FVec F S50000x64 .f32 :=
  maximumf (addf (addf (Host.dotGeneral dot_S50000x144_S144x64_S50000x64_1_0_0_1_n_n none a W)
    (broadcastInDim S50000x64 ![0, 1] bcast_S1x64_S50000x64_0_1 b2)) h0) zero64

def agg2 (h x : FVec F S50000x64 .f32) (dst src : IVec S850000 32) : FVec F S50000x192 .f32 :=
  Host.scatterAdd scatter_S50000x192_S850000x1_S850000x192_1_0_0_1
    (broadcastInDim S50000x192 ![] bcast_S_S50000x192 (constant S_ .f32 0x00000000#32)) (col dst)
    (concatenate S850000x192 1 [⟨S850000x64, rowsAt h dst⟩, ⟨S850000x64, rowsAt h src⟩, ⟨S850000x64, rowsAt x src⟩] concatenates_S850000x64_S850000x64_S850000x64_S850000x192_d1)

def outm (a : FVec F S50000x192 .f32) (W : FVec F S192x64 .f32) (b2 : FVec F S1x64 .f32) : FVec F S50000x64 .f32 :=
  maximumf (addf (Host.dotGeneral dot_S50000x192_S192x64_S50000x64_1_0_0_1_n_n none a W)
    (broadcastInDim S50000x64 ![0, 1] bcast_S1x64_S50000x64_0_1 b2)) zero64

def segsum (out : FVec F S50000x64 .f32) (bcol : IVec S50000x1 32) : FVec F S256x64 .f32 :=
  Host.scatterAdd scatter_S256x64_S50000x1_S50000x64_1_0_0_1
    (broadcastInDim S256x64 ![] bcast_S_S256x64 (constant S_ .f32 0x00000000#32)) bcol out

def pool (out : FVec F S50000x64 .f32) (bcol : IVec S50000x1 32) (W : FVec F S64x1 .f32) (b11 : FVec F S1x1 .f32) : FVec F S256x1 .f32 :=
  addf (Host.dotGeneral dot_S256x64_S64x1_S256x1_1_0_0_1_n_n none (segsum out bcol) W)
    (broadcastInDim S256x1 ![0, 1] bcast_S1x1_S256x1_0_1 b11)

def final (x : FVec F S50000x64 .f32) (a : FVec F S800000x16 .f32) (Wnh : FVec F S64x64 .f32) (bnh : FVec F S64 .f32)
    (Wmh : FVec F S144x64 .f32) (bmh : FVec F S64 .f32) (Wom : FVec F S192x64 .f32) (bom : FVec F S64 .f32)
    (Wout : FVec F S64x1 .f32) (bout : FVec F S1 .f32) (ei : IVec S2x800000 32) (batch : IVec S50000 32) : FVec F S256x1 .f32 :=
  let h₀ := h0 x Wnh (row64 bnh)
  let h₁ := layer (agg h₀ (dst ei) (src ei) (ea a)) Wmh (row64 bmh) h₀
  let h₂ := layer (agg h₁ (dst ei) (src ei) (ea a)) Wmh (row64 bmh) h₀
  let h₃ := layer (agg h₂ (dst ei) (src ei) (ea a)) Wmh (row64 bmh) h₀
  pool (outm (agg2 h₃ x (dst ei) (src ei)) Wom (row64 bom))
    (broadcastInDim S50000x1 ![0] bcast_S50000_S50000x1_0 batch) Wout (broadcastInDim S1x1 ![1] bcast_S1_S1x1_1 bout)

end Cert.Spec

end
-- ==== Proof.LibRowOps.lean ====
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

end Cert.LibRowOps

end
-- ==== Proof.KI.Reg0.lean ====
import proofs.«426835_j41618233099040_1_alg».proof.Proof.Gen.KernelIdeal.Launch
import proofs.«426835_j41618233099040_1_alg».proof.Proof.Gen.KernelIdeal.Skeleton
import proofs.«426835_j41618233099040_1_alg».proof.Proof.Gen.KernelIdeal.Points
import proofs.«426835_j41618233099040_1_alg».proof.Proof.Spec
import proofs.«426835_j41618233099040_1_alg».proof.Proof.LibRowOps
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0
abbrev r0_3 : Rect S5000x64 := Rect.unit (s := S5000x64) ![0, 0] S5000x64.size inb_S5000x64_S5000x64_0_0

def out0_3 (x0 : Vec F S5000x64 .f32) (x1 : Vec F S64x64 .f32) (x2 : Vec F S1x64 .f32) : Vec F S5000x64 .f32 :=
  View.canon [⟨r0_3, k0_pay1 (View.ld x0 r0_0) (View.ld x1 r0_1) (View.ld x2 r0_2)⟩]

theorem cover0_3 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

-- One symbolic run of the body: each input read whole, the output stored whole once.
set_option maxHeartbeats 1000000 in
theorem sound_kernel0 (c : Dev nD) (E : Set ℕ) (i : grid0.Coords) (arg1 : Memref sig .tc .vmem S5000x64 .f32) (harg1 : arg1.IsWhole)
    (arg2 : Memref sig .tc .vmem S64x64 .f32) (harg2 : arg2.IsWhole) (arg3 : Memref sig .tc .vmem S1x64 .f32) (harg3 : arg3.IsWhole)
    (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__h0_kernel i arg1 harg1 arg2 harg2 arg3 harg3 arg4 harg4) K := by
  simp only [cc0__h0_kernel_eq_skeleton]; unfold cc0__h0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

section Value
open Idealize.ShloMosaic.ValueIdx
open scoped BigOperators

variable (V : (c : Dev nD) → (b : Ref sig .tc) → Buf (Elt Ideal) ((c : Thread nD τ).loc b))

theorem zeros0 : (![0, 0] : Fin 2 → Nat) = fun _ => 0 := funext fun a => by fin_cases a <;> rfl

theorem pay0_apply (x0 : Vec Ideal S5000x64 .f32) (x1 : Vec Ideal S64x64 .f32) (x2 : Vec Ideal S1x64 .f32) (p : Fin 5000) (q : Fin 64) :
    k0_pay1 x0 x1 x2 (ix2 p q)
      = max ((∑ k : Fin 64, x0 (ix2 p k) * x1 (ix2 k q)) + x2 (ix2 (0 : Fin 1) q)) (Ideal.ofBits .f32 0x00000000#32) := by
  unfold k0_pay1
  simp only [shapeCast_self]
  rw [maximumf_apply, addf_apply, broadcast_apply,
    Cert.LibRowOps.matmul_plain_apply dot_S5000x64_S64x64_S5000x64_1_0_0_1_n_n rfl,
    broadcastTo_1b_ab_apply]
  rfl

theorem spec0_apply (X : FVec Ideal S50000x64 .f32) (W : FVec Ideal S64x64 .f32) (b : FVec Ideal S1x64 .f32) (r : Fin 50000) (q : Fin 64) :
    Cert.Spec.h0 X W b (ix2 r q)
      = max ((∑ k : Fin 64, X (ix2 r k) * W (ix2 k q)) + b (ix2 (0 : Fin 1) q)) (Ideal.ofBits .f32 0x00000000#32) := by
  unfold Cert.Spec.h0 Cert.Spec.zero64
  rw [maximumf_apply, addf_apply,
    Cert.LibRowOps.dotGeneral_plain_apply Cert.ReferenceIdeal.dot_S50000x64_S64x64_S50000x64_1_0_0_1_n_n rfl]
  have e1 : ∀ h, broadcastInDim Cert.ReferenceIdeal.S50000x64 ![0, 1] h b (ix2 r q) = b (ix2 (0 : Fin 1) q) := fun h =>
    broadcastInDim_apply _ h b (ix2 r q) (ix2 (0 : Fin 1) q) fun a => by
      match a with
      | ⟨0, _⟩ => rfl
      | ⟨1, _⟩ => rfl
  have e2 : ∀ h, broadcastInDim Cert.ReferenceIdeal.S50000x64 ![] h (constant (F := Ideal) Cert.ReferenceIdeal.S_ .f32 0x00000000#32) (ix2 r q) = Ideal.ofBits .f32 0x00000000#32 := fun h =>
    (broadcastInDim_apply _ h _ (ix2 r q) ix0 fun a => a.elim0).trans (constant_apply _ _)
  rw [e1, e2]

theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem iblk0_0_apply (c : Dev nD) (t : Fin cfg0.N) (x : S5000x64.Idx) (k : S50000x64.Idx)
    (hk0 : (k 0).val = 5000 * t.val + (x 0).val) (hk1 : (k 1).val = (x 1).val) :
    (iblk0 V c 0 t : Vec Ideal S5000x64 .f32) x = (V c main_arg0 : S50000x64.Idx → EReal) k := by
  obtain ⟨e0, e1, -⟩ := index0 t
  unfold iblk0
  rw [View.read_apply]
  show V c main_arg0 _ = V c main_arg0 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 64 + 1 * (x 1).val = (k 1).val; rw [e1, hk1]; omega

theorem iblk0_1_apply (c : Dev nD) (t : Fin cfg0.N) (x : S64x64.Idx) :
    (iblk0 V c 1 t : Vec Ideal S64x64 .f32) x = (V c main_arg2 : S64x64.Idx → EReal) x := by
  obtain ⟨-, -, e0, e1, -⟩ := index0 t
  unfold iblk0
  rw [View.read_apply]
  show V c main_arg2 _ = V c main_arg2 _
  congr 1
  funext a
  apply Fin.ext
  match a with
  | ⟨0, _⟩ => show win0_1.index t (0 : Fin 2) * 64 + 1 * (x 0).val = (x 0).val; rw [e0]; omega
  | ⟨1, _⟩ => show win0_1.index t (1 : Fin 2) * 64 + 1 * (x 1).val = (x 1).val; rw [e1]; omega

theorem iblk0_2_apply (c : Dev nD) (t : Fin cfg0.N) (x : S1x64.Idx) :
    (iblk0 V c 2 t : Vec Ideal S1x64 .f32) x = (V c main_v0 : S1x64.Idx → EReal) x := by
  obtain ⟨-, -, -, -, e0, e1, -⟩ := index0 t
  unfold iblk0
  rw [View.read_apply]
  show V c main_v0 _ = V c main_v0 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 64 + 1 * (x 1).val = (x 1).val; rw [e1]; omega

theorem flushed0_eq (c : Dev nD) (t : Fin cfg0.N) :
    (dat0 (F := Ideal) V c).flushed 3 t = ((cfg0.win 3).blk t).view.read (Elt Ideal)
      (Cert.Spec.h0 (F := Ideal) (V c main_arg0) (V c main_arg2) (V c main_v0) : Buf (Elt Ideal) ((c : Thread nD τ).loc main_v1)) := by
  show (cfg0.win 3).cut (grid0.coords t) ((dat0 (F := Ideal) V c).after 3 t) = _
  rw [after0_3]
  unfold out0_3
  rw [View.canon_unit_zero zeros0]
  simp only [View.ld_unit_zero (S := S5000x64) zeros0, View.ld_unit_zero (S := S64x64) zeros0, View.ld_unit_zero (S := S1x64) zeros0]
  obtain ⟨-, -, -, -, -, -, e6, e7⟩ := index0 t
  have ht : t.val < 10 := Nat.lt_of_lt_of_eq t.isLt (show cfg0.N = 10 from N_0)
  funext j
  obtain ⟨p, q, rfl⟩ : ∃ (p : Fin 5000) (q : Fin 64), j = ix2 p q := ⟨j 0, j 1, eq_ix2 j⟩
  have hemb : ((cfg0.win 3).blk t).view.emb (ix2 p q) = (ix2 (⟨5000 * t.val + p.val, by omega⟩ : Fin 50000) q : S50000x64.Idx) := by
    funext a
    apply Fin.ext
    match a with
    | ⟨0, _⟩ => show win0_3.index t (0 : Fin 2) * 5000 + 1 * p.val = 5000 * t.val + p.val; rw [e6]; omega
    | ⟨1, _⟩ => show win0_3.index t (1 : Fin 2) * 64 + 1 * q.val = q.val; rw [e7]; omega
  refine (pay0_apply (iblk0 V c 0 t) (iblk0 V c 1 t) (iblk0 V c 2 t) p q).trans ?_
  refine Eq.trans ?_ ((spec0_apply (V c main_arg0) (V c main_arg2) (V c main_v0) ⟨5000 * t.val + p.val, by omega⟩ q).symm.trans
    (congrArg (Cert.Spec.h0 (F := Ideal) (V c main_arg0) (V c main_arg2) (V c main_v0) : S50000x64.Idx → EReal) hemb.symm))
  exact congrArg₂ max (congrArg₂ (· + ·)
    (Finset.sum_congr rfl fun k _ => congrArg₂ (· * ·) (iblk0_0_apply V c t (ix2 p k) (ix2 ⟨5000 * t.val + p.val, by omega⟩ k) rfl rfl)
      (iblk0_1_apply V c t (ix2 k q)))
    (iblk0_2_apply V c t (ix2 (0 : Fin 1) q))) rfl

theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v1).slice (win0_3.rect t)).set ↔ _
  rw [View.set_slice_whole, Rect.mem_set_unit]
  exact Iff.rfl

theorem cover0 (i : S50000x64.Idx) : ∃ t : Fin cfg0.N, (cfg0.win 3).flush t = true ∧ i ∈ ((cfg0.win 3).blk t).view.set := by
  have h0 : (i 0).val < 50000 := (i 0).isLt
  have h1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e6, e7⟩ := index0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 64 ≤ (i 1).val ∧ (i 1).val < win0_3.index t (1 : Fin 2) * 64 + 64; rw [e7]; omega

-- The ten row blocks written back tile the output array, each the reference's stage on its rows.
theorem final0 (c : Dev nD) :
    (dat0 (F := Ideal) V c).arrAt 3 cfg0.N
      = (Cert.Spec.h0 (F := Ideal) (V c main_arg0) (V c main_arg2) (V c main_v0) : Buf (Elt Ideal) ((c : Thread nD τ).loc main_v1)) :=
  (dat0 (F := Ideal) V c).arrAt_eq_of_cover 3 _ (fun t _ => flushed0_eq V c t) cover0

end Value

end Cert.KernelIdeal.Frame

end
-- ==== Proof.KI.Reg1.lean ====
import proofs.«426835_j41618233099040_1_alg».proof.Proof.Gen.KernelIdeal.Launch
import proofs.«426835_j41618233099040_1_alg».proof.Proof.Gen.KernelIdeal.Skeleton
import proofs.«426835_j41618233099040_1_alg».proof.Proof.Gen.KernelIdeal.Points
import proofs.«426835_j41618233099040_1_alg».proof.Proof.Spec
import proofs.«426835_j41618233099040_1_alg».proof.Proof.LibRowOps
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev rectA1 : Rect S5000x144 := Rect.unit (s := S5000x144) ![0, 0] S5000x144.size inb_S5000x144_S5000x144_0_0
abbrev rectW1 : Rect S144x64 := Rect.unit (s := S144x64) ![0, 0] S144x64.size inb_S144x64_S144x64_0_0
abbrev rectB1 : Rect S1x64 := Rect.unit (s := S1x64) ![0, 0] S1x64.size inb_S1x64_S1x64_0_0
abbrev rectH1 : Rect S5000x64 := Rect.unit (s := S5000x64) ![0, 0] S5000x64.size inb_S5000x64_S5000x64_0_0

def out1_4 (x0 : Vec F S5000x144 .f32) (x1 : Vec F S144x64 .f32) (x2 : Vec F S1x64 .f32) (x3 : Vec F S5000x64 .f32) : Vec F S5000x64 .f32 :=
  View.canon [⟨rectH1, k1_pay1 (View.ld x0 rectA1) (View.ld x1 rectW1) (View.ld x2 rectB1) (View.ld x3 rectH1)⟩]

theorem cover1_4 (p0 : Vec F S5000x64 .f32) (y : S5000x64.Idx) :
    ∃ pc ∈ ([⟨rectH1, p0⟩] : List (View.Piece (Elt F) S5000x64 .f32)), y ∈ pc.1.set :=
  View.cover_of_tiled [⟨rectH1, p0⟩] S5000x64.size (by rfl) y

-- One symbolic run of the body: each input read whole, the output stored whole once.
set_option maxHeartbeats 1000000 in
theorem sound_kernel1 (c : Dev nD) (E : Set ℕ) (i : grid1.Coords)
    (arg1 : Memref sig .tc .vmem S5000x144 .f32) (harg1 : arg1.IsWhole) (arg2 : Memref sig .tc .vmem S144x64 .f32) (harg2 : arg2.IsWhole)
    (arg3 : Memref sig .tc .vmem S1x64 .f32) (harg3 : arg3.IsWhole) (arg4 : Memref sig .tc .vmem S5000x64 .f32) (harg4 : arg4.IsWhole)
    (arg5 : Memref sig .tc .vmem S5000x64 .f32) (harg5 : arg5.IsWhole)
    (x0 : Vec F S5000x144 .f32) (x1 : Vec F S144x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__layer_kernel i arg1 harg1 arg2 harg2 arg3 harg3 arg4 harg4 arg5 harg5) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

section Value1

open Idealize.ShloMosaic.ValueIdx
open scoped BigOperators

variable (V : (c : Dev nD) → (b : Ref sig .tc) → Buf (Elt Ideal) ((c : Thread nD τ).loc b))

theorem hz1 : (![0, 0] : Fin 2 → Nat) = fun _ => 0 := funext fun a => by fin_cases a <;> rfl

theorem pay1_apply (x0 : Vec Ideal S5000x144 .f32) (x1 : Vec Ideal S144x64 .f32) (x2 : Vec Ideal S1x64 .f32) (x3 : Vec Ideal S5000x64 .f32)
    (p : Fin 5000) (q : Fin 64) :
    k1_pay1 x0 x1 x2 x3 (ix2 p q)
      = max ((∑ k : Fin 144, x0 (ix2 p k) * x1 (ix2 k q)) + x2 (ix2 (0 : Fin 1) q) + x3 (ix2 p q)) (Ideal.ofBits .f32 0x00000000#32) := by
  unfold k1_pay1
  simp only [shapeCast_self]
  rw [maximumf_apply, addf_apply, addf_apply, broadcast_apply, broadcastTo_1b_ab_apply,
    Cert.LibRowOps.matmul_plain_apply dot_S5000x144_S144x64_S5000x64_1_0_0_1_n_n rfl]
  rfl

theorem layer1_apply (a : FVec Ideal S50000x144 .f32) (W : FVec Ideal S144x64 .f32) (b2 : FVec Ideal S1x64 .f32) (h : FVec Ideal S50000x64 .f32)
    (r : Fin 50000) (q : Fin 64) :
    Cert.Spec.layer a W b2 h (ix2 r q)
      = max ((∑ k : Fin 144, a (ix2 r k) * W (ix2 k q)) + b2 (ix2 (0 : Fin 1) q) + h (ix2 r q)) (Ideal.ofBits .f32 0x00000000#32) := by
  unfold Cert.Spec.layer Cert.Spec.zero64
  rw [maximumf_apply, addf_apply, addf_apply, Cert.LibRowOps.dotGeneral_plain_apply Cert.ReferenceIdeal.dot_S50000x144_S144x64_S50000x64_1_0_0_1_n_n rfl,
    broadcastInDim_apply _ _ b2 (ix2 r q) (ix2 (0 : Fin 1) q) (fun a => by match a with | ⟨0, _⟩ => rfl | ⟨1, _⟩ => rfl),
    broadcastInDim_apply _ _ _ (ix2 r q) ix0 (fun a => a.elim0), constant_apply]

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem iblk1_0_apply (c : Dev nD) (t : Fin cfg1.N) (x : S5000x144.Idx) (k : S50000x144.Idx)
    (hk0 : (k 0).val = 5000 * t.val + (x 0).val) (hk1 : (k 1).val = (x 1).val) :
    (iblk1 V c 0 t : Vec Ideal S5000x144 .f32) x = (V c main_v41 : S50000x144.Idx → Elt Ideal .f32) k := by
  obtain ⟨e0, e1, -⟩ := idx_facts1 t
  unfold iblk1
  rw [View.read_apply]
  show V c main_v41 _ = V c main_v41 _
  congr 1
  funext a
  apply Fin.ext
  match a with
  | ⟨0, _⟩ => show win1_0.index t 0 * 5000 + 1 * (x 0).val = (k 0).val; rw [e0, hk0]; omega
  | ⟨1, _⟩ => show win1_0.index t 1 * 144 + 1 * (x 1).val = (k 1).val; rw [e1, hk1]; omega

theorem iblk1_1_apply (c : Dev nD) (t : Fin cfg1.N) (x : S144x64.Idx) :
    (iblk1 V c 1 t : Vec Ideal S144x64 .f32) x = (V c main_arg4 : S144x64.Idx → Elt Ideal .f32) x := by
  obtain ⟨-, -, e2, e3, -⟩ := idx_facts1 t
  unfold iblk1
  rw [View.read_apply]
  show V c main_arg4 _ = V c main_arg4 _
  congr 1
  funext a
  apply Fin.ext
  match a with
  | ⟨0, _⟩ => show win1_1.index t 0 * 144 + 1 * (x 0).val = (x 0).val; rw [e2]; omega
  | ⟨1, _⟩ => show win1_1.index t 1 * 64 + 1 * (x 1).val = (x 1).val; rw [e3]; omega

theorem iblk1_2_apply (c : Dev nD) (t : Fin cfg1.N) (x : S1x64.Idx) :
    (iblk1 V c 2 t : Vec Ideal S1x64 .f32) x = (V c main_v42 : S1x64.Idx → Elt Ideal .f32) x := by
  obtain ⟨-, -, -, -, e4, e5, -⟩ := idx_facts1 t
  unfold iblk1
  rw [View.read_apply]
  show V c main_v42 _ = V c main_v42 _
  congr 1
  funext a
  apply Fin.ext
  match a with
  | ⟨0, _⟩ => show win1_2.index t 0 * 1 + 1 * (x 0).val = (x 0).val; rw [e4]; omega
  | ⟨1, _⟩ => show win1_2.index t 1 * 64 + 1 * (x 1).val = (x 1).val; rw [e5]; omega

theorem iblk1_3_apply (c : Dev nD) (t : Fin cfg1.N) (x : S5000x64.Idx) (k : S50000x64.Idx)
    (hk0 : (k 0).val = 5000 * t.val + (x 0).val) (hk1 : (k 1).val = (x 1).val) :
    (iblk1 V c 3 t : Vec Ideal S5000x64 .f32) x = (V c main_v1 : S50000x64.Idx → Elt Ideal .f32) k := by
  obtain ⟨-, -, -, -, -, -, e6, e7, -⟩ := idx_facts1 t
  unfold iblk1
  rw [View.read_apply]
  show V c main_v1 _ = V c main_v1 _
  congr 1
  funext a
  apply Fin.ext
  match a with
  | ⟨0, _⟩ => show win1_3.index t 0 * 5000 + 1 * (x 0).val = (k 0).val; rw [e6, hk0]; omega
  | ⟨1, _⟩ => show win1_3.index t 1 * 64 + 1 * (x 1).val = (k 1).val; rw [e7, hk1]; omega

abbrev step1 (c : Dev nD) : S50000x64.Idx → Elt Ideal .f32 :=
  Cert.Spec.layer (F := Ideal) (V c main_v41) (V c main_arg4) (V c main_v42) (V c main_v1)

theorem flushed1_eq (c : Dev nD) (t : Fin cfg1.N) :
    (dat1 V c).flushed 4 t = ((cfg1.win 4).blk t).view.read (Elt Ideal) (step1 V c) := by
  show (cfg1.win 4).cut (grid1.coords t) ((dat1 V c).after 4 t) = _
  rw [after1_4]
  unfold out1_4
  rw [View.canon_unit_zero hz1]
  simp only [View.ld_unit_zero (S := S5000x144) hz1, View.ld_unit_zero (S := S144x64) hz1,
    View.ld_unit_zero (S := S1x64) hz1, View.ld_unit_zero (S := S5000x64) hz1]
  funext j
  obtain ⟨p, q, rfl⟩ : ∃ (p : Fin 5000) (q : Fin 64), j = ix2 p q := ⟨j 0, j 1, eq_ix2 j⟩
  have ht : t.val < 10 := lt_of_lt_of_eq t.isLt (N_1 : cfg1.N = 10)
  obtain ⟨-, -, -, -, -, -, -, -, e8, e9⟩ := idx_facts1 t
  have hemb : ((cfg1.win 4).blk t).view.emb (ix2 p q)
      = (ix2 (⟨5000 * t.val + p.val, by have := p.isLt; omega⟩ : Fin 50000) q : S50000x64.Idx) := by
    funext a; apply Fin.ext
    match a with
    | ⟨0, _⟩ => show win1_4.index t 0 * 5000 + 1 * p.val = 5000 * t.val + p.val; rw [e8]; omega
    | ⟨1, _⟩ => show win1_4.index t 1 * 64 + 1 * q.val = q.val; rw [e9]; omega
  show k1_pay1 (iblk1 V c 0 t) (iblk1 V c 1 t) (iblk1 V c 2 t) (iblk1 V c 3 t) (ix2 p q)
    = Cert.Spec.layer (F := Ideal) (V c main_v41) (V c main_arg4) (V c main_v42) (V c main_v1) (((cfg1.win 4).blk t).view.emb (ix2 p q))
  rw [hemb, pay1_apply, layer1_apply]
  rw [iblk1_2_apply V c t, iblk1_3_apply V c t (ix2 p q) (ix2 (⟨5000 * t.val + p.val, by have := p.isLt; omega⟩ : Fin 50000) q) rfl rfl]
  refine congrArg (fun s => max (s + _ + _) _) (Finset.sum_congr rfl fun k _ => ?_)
  rw [iblk1_0_apply V c t (ix2 p k) (ix2 (⟨5000 * t.val + p.val, by have := p.isLt; omega⟩ : Fin 50000) k) rfl rfl, iblk1_1_apply V c t]

theorem mem_blk1_4 (t : Fin cfg1.N) (i : S50000x64.Idx) :
    i ∈ ((cfg1.win 4).blk t).view.set
      ↔ ∀ a : Fin 2, win1_4.index t a * S5000x64.size a ≤ (i a).val ∧ (i a).val < win1_4.index t a * S5000x64.size a + S5000x64.size a := by
  show i ∈ ((View.whole main_v43).slice (win1_4.rect t)).set ↔ _
  rw [View.set_slice_whole, Rect.mem_set_unit]
  exact Iff.rfl

theorem covered1_4 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega) (N_1.symm : 10 = cfg1.N)⟩, rfl⟩
  obtain ⟨-, -, -, -, -, -, -, -, e8, e9⟩ := idx_facts1 t
  refine ⟨t, flush1_4 t, ?_⟩
  rw [mem_blk1_4]
  intro a
  match a with
  | ⟨0, _⟩ =>
    show win1_4.index t 0 * 5000 ≤ (i 0).val ∧ (i 0).val < win1_4.index t 0 * 5000 + 5000
    rw [e8, ht]; omega
  | ⟨1, _⟩ =>
    show win1_4.index t 1 * 64 ≤ (i 1).val ∧ (i 1).val < win1_4.index t 1 * 64 + 64
    rw [e9]; omega

-- The ten row blocks written back tile the output array, each the reference's stage on its rows.
theorem final1 (c : Dev nD) :
    (dat1 (F := Ideal) V c).arrAt 4 cfg1.N
      = (Cert.Spec.layer (F := Ideal) (V c main_v41) (V c main_arg4) (V c main_v42) (V c main_v1) : S50000x64.Idx → Elt Ideal .f32) :=
  (dat1 V c).arrAt_eq_of_cover 4 (step1 V c) (fun t _ => flushed1_eq V c t) covered1_4

end Value1

end Cert.KernelIdeal.Frame

end
-- ==== Proof.KI.Reg2.lean ====
import proofs.«426835_j41618233099040_1_alg».proof.Proof.Gen.KernelIdeal.Launch
import proofs.«426835_j41618233099040_1_alg».proof.Proof.Gen.KernelIdeal.Skeleton
import proofs.«426835_j41618233099040_1_alg».proof.Proof.Gen.KernelIdeal.Points
import proofs.«426835_j41618233099040_1_alg».proof.Proof.Spec
import proofs.«426835_j41618233099040_1_alg».proof.Proof.LibRowOps
import proofs.«426835_j41618233099040_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev rectA2 : Rect S5000x144 := Rect.unit (s := S5000x144) ![0, 0] S5000x144.size inb_S5000x144_S5000x144_0_0
abbrev rectW2 : Rect S144x64 := Rect.unit (s := S144x64) ![0, 0] S144x64.size inb_S144x64_S144x64_0_0
abbrev rectB2 : Rect S1x64 := Rect.unit (s := S1x64) ![0, 0] S1x64.size inb_S1x64_S1x64_0_0
abbrev rectH2 : Rect S5000x64 := Rect.unit (s := S5000x64) ![0, 0] S5000x64.size inb_S5000x64_S5000x64_0_0

def out2_4 (x0 : Vec F S5000x144 .f32) (x1 : Vec F S144x64 .f32) (x2 : Vec F S1x64 .f32) (x3 : Vec F S5000x64 .f32) : Vec F S5000x64 .f32 :=
  View.canon [⟨rectH2, k2_pay1 (View.ld x0 rectA2) (View.ld x1 rectW2) (View.ld x2 rectB2) (View.ld x3 rectH2)⟩]

-- The body is region 1's, at the same shapes.
theorem sound_kernel2 (c : Dev nD) (E : Set ℕ) (i : grid2.Coords)
    (arg1 : Memref sig .tc .vmem S5000x144 .f32) (harg1 : arg1.IsWhole) (arg2 : Memref sig .tc .vmem S144x64 .f32) (harg2 : arg2.IsWhole)
    (arg3 : Memref sig .tc .vmem S1x64 .f32) (harg3 : arg3.IsWhole) (arg4 : Memref sig .tc .vmem S5000x64 .f32) (harg4 : arg4.IsWhole)
    (arg5 : Memref sig .tc .vmem S5000x64 .f32) (harg5 : arg5.IsWhole)
    (x0 : Vec F S5000x144 .f32) (x1 : Vec F S144x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__layer_kernel i arg1 harg1 arg2 harg2 arg3 harg3 arg4 harg4 arg5 harg5) K :=
  sound_kernel1 c E i arg1 harg1 arg2 harg2 arg3 harg3 arg4 harg4 arg5 harg5 x0 x1 x2 x3 K

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

section Value2

open Idealize.ShloMosaic.ValueIdx
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

theorem pay2_apply (x0 : Vec Ideal S5000x144 .f32) (x1 : Vec Ideal S144x64 .f32) (x2 : Vec Ideal S1x64 .f32) (x3 : Vec Ideal S5000x64 .f32)
    (p : Fin 5000) (q : Fin 64) :
    k2_pay1 x0 x1 x2 x3 (ix2 p q)
      = max ((∑ k : Fin 144, x0 (ix2 p k) * x1 (ix2 k q)) + x2 (ix2 (0 : Fin 1) q) + x3 (ix2 p q)) (Ideal.ofBits .f32 0x00000000#32) := by
  unfold k2_pay1
  simp only [shapeCast_self]
  rw [maximumf_apply, addf_apply, addf_apply, broadcast_apply, broadcastTo_1b_ab_apply,
    Cert.LibRowOps.matmul_plain_apply dot_S5000x144_S144x64_S5000x64_1_0_0_1_n_n rfl]
  rfl

theorem layer2_apply (a : FVec Ideal S50000x144 .f32) (W : FVec Ideal S144x64 .f32) (b2 : FVec Ideal S1x64 .f32) (h : FVec Ideal S50000x64 .f32)
    (r : Fin 50000) (q : Fin 64) :
    Cert.Spec.layer a W b2 h (ix2 r q)
      = max ((∑ k : Fin 144, a (ix2 r k) * W (ix2 k q)) + b2 (ix2 (0 : Fin 1) q) + h (ix2 r q)) (Ideal.ofBits .f32 0x00000000#32) := by
  unfold Cert.Spec.layer Cert.Spec.zero64
  rw [maximumf_apply, addf_apply, addf_apply, Cert.LibRowOps.dotGeneral_plain_apply Cert.ReferenceIdeal.dot_S50000x144_S144x64_S50000x64_1_0_0_1_n_n rfl,
    broadcastInDim_apply _ _ b2 (ix2 r q) (ix2 (0 : Fin 1) q) (fun a => by match a with | ⟨0, _⟩ => rfl | ⟨1, _⟩ => rfl),
    broadcastInDim_apply _ _ _ (ix2 r q) ix0 (fun a => a.elim0), constant_apply]

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem iblk2_0_apply (c : Dev nD) (t : Fin cfg2.N) (x : S5000x144.Idx) (k : S50000x144.Idx)
    (hk0 : (k 0).val = 5000 * t.val + (x 0).val) (hk1 : (k 1).val = (x 1).val) :
    (iblk2 V c 0 t : Vec Ideal S5000x144 .f32) x = (V c main_v56 : S50000x144.Idx → Elt Ideal .f32) k := by
  obtain ⟨e0, e1, -⟩ := idx_facts2 t
  unfold iblk2
  rw [View.read_apply]
  show V c main_v56 _ = V c main_v56 _
  congr 1
  funext a
  apply Fin.ext
  match a with
  | ⟨0, _⟩ => show win2_0.index t 0 * 5000 + 1 * (x 0).val = (k 0).val; rw [e0, hk0]; omega
  | ⟨1, _⟩ => show win2_0.index t 1 * 144 + 1 * (x 1).val = (k 1).val; rw [e1, hk1]; omega

theorem iblk2_1_apply (c : Dev nD) (t : Fin cfg2.N) (x : S144x64.Idx) :
    (iblk2 V c 1 t : Vec Ideal S144x64 .f32) x = (V c main_arg4 : S144x64.Idx → Elt Ideal .f32) x := by
  obtain ⟨-, -, e2, e3, -⟩ := idx_facts2 t
  unfold iblk2
  rw [View.read_apply]
  show V c main_arg4 _ = V c main_arg4 _
  congr 1
  funext a
  apply Fin.ext
  match a with
  | ⟨0, _⟩ => show win2_1.index t 0 * 144 + 1 * (x 0).val = (x 0).val; rw [e2]; omega
  | ⟨1, _⟩ => show win2_1.index t 1 * 64 + 1 * (x 1).val = (x 1).val; rw [e3]; omega

theorem iblk2_2_apply (c : Dev nD) (t : Fin cfg2.N) (x : S1x64.Idx) :
    (iblk2 V c 2 t : Vec Ideal S1x64 .f32) x = (V c main_v57 : S1x64.Idx → Elt Ideal .f32) x := by
  obtain ⟨-, -, -, -, e4, e5, -⟩ := idx_facts2 t
  unfold iblk2
  rw [View.read_apply]
  show V c main_v57 _ = V c main_v57 _
  congr 1
  funext a
  apply Fin.ext
  match a with
  | ⟨0, _⟩ => show win2_2.index t 0 * 1 + 1 * (x 0).val = (x 0).val; rw [e4]; omega
  | ⟨1, _⟩ => show win2_2.index t 1 * 64 + 1 * (x 1).val = (x 1).val; rw [e5]; omega

theorem iblk2_3_apply (c : Dev nD) (t : Fin cfg2.N) (x : S5000x64.Idx) (k : S50000x64.Idx)
    (hk0 : (k 0).val = 5000 * t.val + (x 0).val) (hk1 : (k 1).val = (x 1).val) :
    (iblk2 V c 3 t : Vec Ideal S5000x64 .f32) x = (V c main_v1 : S50000x64.Idx → Elt Ideal .f32) k := by
  obtain ⟨-, -, -, -, -, -, e6, e7, -⟩ := idx_facts2 t
  unfold iblk2
  rw [View.read_apply]
  show V c main_v1 _ = V c main_v1 _
  congr 1
  funext a
  apply Fin.ext
  match a with
  | ⟨0, _⟩ => show win2_3.index t 0 * 5000 + 1 * (x 0).val = (k 0).val; rw [e6, hk0]; omega
  | ⟨1, _⟩ => show win2_3.index t 1 * 64 + 1 * (x 1).val = (k 1).val; rw [e7, hk1]; omega

abbrev step2 (c : Dev nD) : S50000x64.Idx → Elt Ideal .f32 :=
  Cert.Spec.layer (F := Ideal) (V c main_v56) (V c main_arg4) (V c main_v57) (V c main_v1)

theorem flushed2_eq (c : Dev nD) (t : Fin cfg2.N) :
    (dat2 V c).flushed 4 t = ((cfg2.win 4).blk t).view.read (Elt Ideal) (step2 V c) := by
  show (cfg2.win 4).cut (grid2.coords t) ((dat2 V c).after 4 t) = _
  rw [after2_4]
  unfold out2_4
  rw [View.canon_unit_zero hz2]
  simp only [View.ld_unit_zero (S := S5000x144) hz2, View.ld_unit_zero (S := S144x64) hz2,
    View.ld_unit_zero (S := S1x64) hz2, View.ld_unit_zero (S := S5000x64) hz2]
  funext j
  obtain ⟨p, q, rfl⟩ : ∃ (p : Fin 5000) (q : Fin 64), j = ix2 p q := ⟨j 0, j 1, eq_ix2 j⟩
  have ht : t.val < 10 := lt_of_lt_of_eq t.isLt (N_2 : cfg2.N = 10)
  obtain ⟨-, -, -, -, -, -, -, -, e8, e9⟩ := idx_facts2 t
  have hemb : ((cfg2.win 4).blk t).view.emb (ix2 p q)
      = (ix2 (⟨5000 * t.val + p.val, by have := p.isLt; omega⟩ : Fin 50000) q : S50000x64.Idx) := by
    funext a; apply Fin.ext
    match a with
    | ⟨0, _⟩ => show win2_4.index t 0 * 5000 + 1 * p.val = 5000 * t.val + p.val; rw [e8]; omega
    | ⟨1, _⟩ => show win2_4.index t 1 * 64 + 1 * q.val = q.val; rw [e9]; omega
  show k2_pay1 (iblk2 V c 0 t) (iblk2 V c 1 t) (iblk2 V c 2 t) (iblk2 V c 3 t) (ix2 p q)
    = Cert.Spec.layer (F := Ideal) (V c main_v56) (V c main_arg4) (V c main_v57) (V c main_v1) (((cfg2.win 4).blk t).view.emb (ix2 p q))
  rw [hemb, pay2_apply, layer2_apply]
  rw [iblk2_2_apply V c t, iblk2_3_apply V c t (ix2 p q) (ix2 (⟨5000 * t.val + p.val, by have := p.isLt; omega⟩ : Fin 50000) q) rfl rfl]
  refine congrArg (fun s => max (s + _ + _) _) (Finset.sum_congr rfl fun k _ => ?_)
  rw [iblk2_0_apply V c t (ix2 p k) (ix2 (⟨5000 * t.val + p.val, by have := p.isLt; omega⟩ : Fin 50000) k) rfl rfl, iblk2_1_apply V c t]

theorem mem_blk2_4 (t : Fin cfg2.N) (i : S50000x64.Idx) :
    i ∈ ((cfg2.win 4).blk t).view.set
      ↔ ∀ a : Fin 2, win2_4.index t a * S5000x64.size a ≤ (i a).val ∧ (i a).val < win2_4.index t a * S5000x64.size a + S5000x64.size a := by
  show i ∈ ((View.whole main_v58).slice (win2_4.rect t)).set ↔ _
  rw [View.set_slice_whole, Rect.mem_set_unit]
  exact Iff.rfl

theorem covered2_4 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, lt_of_lt_of_eq (by omega) (N_2.symm : 10 = cfg2.N)⟩, rfl⟩
  obtain ⟨-, -, -, -, -, -, -, -, e8, e9⟩ := idx_facts2 t
  refine ⟨t, flush2_4 t, ?_⟩
  rw [mem_blk2_4]
  intro a
  match a with
  | ⟨0, _⟩ =>
    show win2_4.index t 0 * 5000 ≤ (i 0).val ∧ (i 0).val < win2_4.index t 0 * 5000 + 5000
    rw [e8, ht]; omega
  | ⟨1, _⟩ =>
    show win2_4.index t 1 * 64 ≤ (i 1).val ∧ (i 1).val < win2_4.index t 1 * 64 + 64
    rw [e9]; omega

-- The ten row blocks written back tile the output array, each the reference's stage on its rows.
theorem final2 (c : Dev nD) :
    (dat2 (F := Ideal) V c).arrAt 4 cfg2.N
      = (Cert.Spec.layer (F := Ideal) (V c main_v56) (V c main_arg4) (V c main_v57) (V c main_v1) : S50000x64.Idx → Elt Ideal .f32) :=
  (dat2 V c).arrAt_eq_of_cover 4 (step2 V c) (fun t _ => flushed2_eq V c t) covered2_4

end Value2

end Cert.KernelIdeal.Frame

end
-- ==== Proof.KI.Reg3.lean ====
import proofs.«426835_j41618233099040_1_alg».proof.Proof.Gen.KernelIdeal.Launch
import proofs.«426835_j41618233099040_1_alg».proof.Proof.Gen.KernelIdeal.Skeleton
import proofs.«426835_j41618233099040_1_alg».proof.Proof.Gen.KernelIdeal.Points
import proofs.«426835_j41618233099040_1_alg».proof.Proof.Spec
import proofs.«426835_j41618233099040_1_alg».proof.Proof.LibRowOps
import proofs.«426835_j41618233099040_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev rectA3 : Rect S5000x144 := Rect.unit (s := S5000x144) ![0, 0] S5000x144.size inb_S5000x144_S5000x144_0_0
abbrev rectW3 : Rect S144x64 := Rect.unit (s := S144x64) ![0, 0] S144x64.size inb_S144x64_S144x64_0_0
abbrev rectB3 : Rect S1x64 := Rect.unit (s := S1x64) ![0, 0] S1x64.size inb_S1x64_S1x64_0_0
abbrev rectH3 : Rect S5000x64 := Rect.unit (s := S5000x64) ![0, 0] S5000x64.size inb_S5000x64_S5000x64_0_0

def out3_4 (x0 : Vec F S5000x144 .f32) (x1 : Vec F S144x64 .f32) (x2 : Vec F S1x64 .f32) (x3 : Vec F S5000x64 .f32) : Vec F S5000x64 .f32 :=
  View.canon [⟨rectH3, k3_pay1 (View.ld x0 rectA3) (View.ld x1 rectW3) (View.ld x2 rectB3) (View.ld x3 rectH3)⟩]

-- The body is region 1's, at the same shapes.
theorem sound_kernel3 (c : Dev nD) (E : Set ℕ) (i : grid3.Coords)
    (arg1 : Memref sig .tc .vmem S5000x144 .f32) (harg1 : arg1.IsWhole) (arg2 : Memref sig .tc .vmem S144x64 .f32) (harg2 : arg2.IsWhole)
    (arg3 : Memref sig .tc .vmem S1x64 .f32) (harg3 : arg3.IsWhole) (arg4 : Memref sig .tc .vmem S5000x64 .f32) (harg4 : arg4.IsWhole)
    (arg5 : Memref sig .tc .vmem S5000x64 .f32) (harg5 : arg5.IsWhole)
    (x0 : Vec F S5000x144 .f32) (x1 : Vec F S144x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__layer_kernel i arg1 harg1 arg2 harg2 arg3 harg3 arg4 harg4 arg5 harg5) K :=
  sound_kernel1 c E i arg1 harg1 arg2 harg2 arg3 harg3 arg4 harg4 arg5 harg5 x0 x1 x2 x3 K

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

section Value3

open Idealize.ShloMosaic.ValueIdx
open scoped BigOperators

variable (V : (c : Dev nD) → (b : Ref sig .tc) → Buf (Elt Ideal) ((c : Thread nD τ).loc b))

theorem hz3 : (![0, 0] : Fin 2 → Nat) = fun _ => 0 := funext fun a => by fin_cases a <;> rfl

theorem pay3_apply (x0 : Vec Ideal S5000x144 .f32) (x1 : Vec Ideal S144x64 .f32) (x2 : Vec Ideal S1x64 .f32) (x3 : Vec Ideal S5000x64 .f32)
    (p : Fin 5000) (q : Fin 64) :
    k3_pay1 x0 x1 x2 x3 (ix2 p q)
      = max ((∑ k : Fin 144, x0 (ix2 p k) * x1 (ix2 k q)) + x2 (ix2 (0 : Fin 1) q) + x3 (ix2 p q)) (Ideal.ofBits .f32 0x00000000#32) := by
  unfold k3_pay1
  simp only [shapeCast_self]
  rw [maximumf_apply, addf_apply, addf_apply, broadcast_apply, broadcastTo_1b_ab_apply,
    Cert.LibRowOps.matmul_plain_apply dot_S5000x144_S144x64_S5000x64_1_0_0_1_n_n rfl]
  rfl

theorem layer3_apply (a : FVec Ideal S50000x144 .f32) (W : FVec Ideal S144x64 .f32) (b2 : FVec Ideal S1x64 .f32) (h : FVec Ideal S50000x64 .f32)
    (r : Fin 50000) (q : Fin 64) :
    Cert.Spec.layer a W b2 h (ix2 r q)
      = max ((∑ k : Fin 144, a (ix2 r k) * W (ix2 k q)) + b2 (ix2 (0 : Fin 1) q) + h (ix2 r q)) (Ideal.ofBits .f32 0x00000000#32) := by
  unfold Cert.Spec.layer Cert.Spec.zero64
  rw [maximumf_apply, addf_apply, addf_apply, Cert.LibRowOps.dotGeneral_plain_apply Cert.ReferenceIdeal.dot_S50000x144_S144x64_S50000x64_1_0_0_1_n_n rfl,
    broadcastInDim_apply _ _ b2 (ix2 r q) (ix2 (0 : Fin 1) q) (fun a => by match a with | ⟨0, _⟩ => rfl | ⟨1, _⟩ => rfl),
    broadcastInDim_apply _ _ _ (ix2 r q) ix0 (fun a => a.elim0), constant_apply]

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

theorem iblk3_0_apply (c : Dev nD) (t : Fin cfg3.N) (x : S5000x144.Idx) (k : S50000x144.Idx)
    (hk0 : (k 0).val = 5000 * t.val + (x 0).val) (hk1 : (k 1).val = (x 1).val) :
    (iblk3 V c 0 t : Vec Ideal S5000x144 .f32) x = (V c main_v71 : S50000x144.Idx → Elt Ideal .f32) k := by
  obtain ⟨e0, e1, -⟩ := idx_facts3 t
  unfold iblk3
  rw [View.read_apply]
  show V c main_v71 _ = V c main_v71 _
  congr 1
  funext a
  apply Fin.ext
  match a with
  | ⟨0, _⟩ => show win3_0.index t 0 * 5000 + 1 * (x 0).val = (k 0).val; rw [e0, hk0]; omega
  | ⟨1, _⟩ => show win3_0.index t 1 * 144 + 1 * (x 1).val = (k 1).val; rw [e1, hk1]; omega

theorem iblk3_1_apply (c : Dev nD) (t : Fin cfg3.N) (x : S144x64.Idx) :
    (iblk3 V c 1 t : Vec Ideal S144x64 .f32) x = (V c main_arg4 : S144x64.Idx → Elt Ideal .f32) x := by
  obtain ⟨-, -, e2, e3, -⟩ := idx_facts3 t
  unfold iblk3
  rw [View.read_apply]
  show V c main_arg4 _ = V c main_arg4 _
  congr 1
  funext a
  apply Fin.ext
  match a with
  | ⟨0, _⟩ => show win3_1.index t 0 * 144 + 1 * (x 0).val = (x 0).val; rw [e2]; omega
  | ⟨1, _⟩ => show win3_1.index t 1 * 64 + 1 * (x 1).val = (x 1).val; rw [e3]; omega

theorem iblk3_2_apply (c : Dev nD) (t : Fin cfg3.N) (x : S1x64.Idx) :
    (iblk3 V c 2 t : Vec Ideal S1x64 .f32) x = (V c main_v72 : S1x64.Idx → Elt Ideal .f32) x := by
  obtain ⟨-, -, -, -, e4, e5, -⟩ := idx_facts3 t
  unfold iblk3
  rw [View.read_apply]
  show V c main_v72 _ = V c main_v72 _
  congr 1
  funext a
  apply Fin.ext
  match a with
  | ⟨0, _⟩ => show win3_2.index t 0 * 1 + 1 * (x 0).val = (x 0).val; rw [e4]; omega
  | ⟨1, _⟩ => show win3_2.index t 1 * 64 + 1 * (x 1).val = (x 1).val; rw [e5]; omega

theorem iblk3_3_apply (c : Dev nD) (t : Fin cfg3.N) (x : S5000x64.Idx) (k : S50000x64.Idx)
    (hk0 : (k 0).val = 5000 * t.val + (x 0).val) (hk1 : (k 1).val = (x 1).val) :
    (iblk3 V c 3 t : Vec Ideal S5000x64 .f32) x = (V c main_v1 : S50000x64.Idx → Elt Ideal .f32) k := by
  obtain ⟨-, -, -, -, -, -, e6, e7, -⟩ := idx_facts3 t
  unfold iblk3
  rw [View.read_apply]
  show V c main_v1 _ = V c main_v1 _
  congr 1
  funext a
  apply Fin.ext
  match a with
  | ⟨0, _⟩ => show win3_3.index t 0 * 5000 + 1 * (x 0).val = (k 0).val; rw [e6, hk0]; omega
  | ⟨1, _⟩ => show win3_3.index t 1 * 64 + 1 * (x 1).val = (k 1).val; rw [e7, hk1]; omega

abbrev step3 (c : Dev nD) : S50000x64.Idx → Elt Ideal .f32 :=
  Cert.Spec.layer (F := Ideal) (V c main_v71) (V c main_arg4) (V c main_v72) (V c main_v1)

theorem flushed3_eq (c : Dev nD) (t : Fin cfg3.N) :
    (dat3 V c).flushed 4 t = ((cfg3.win 4).blk t).view.read (Elt Ideal) (step3 V c) := by
  show (cfg3.win 4).cut (grid3.coords t) ((dat3 V c).after 4 t) = _
  rw [after3_4]
  unfold out3_4
  rw [View.canon_unit_zero hz3]
  simp only [View.ld_unit_zero (S := S5000x144) hz3, View.ld_unit_zero (S := S144x64) hz3,
    View.ld_unit_zero (S := S1x64) hz3, View.ld_unit_zero (S := S5000x64) hz3]
  funext j
  obtain ⟨p, q, rfl⟩ : ∃ (p : Fin 5000) (q : Fin 64), j = ix2 p q := ⟨j 0, j 1, eq_ix2 j⟩
  have ht : t.val < 10 := lt_of_lt_of_eq t.isLt (N_3 : cfg3.N = 10)
  obtain ⟨-, -, -, -, -, -, -, -, e8, e9⟩ := idx_facts3 t
  have hemb : ((cfg3.win 4).blk t).view.emb (ix2 p q)
      = (ix2 (⟨5000 * t.val + p.val, by have := p.isLt; omega⟩ : Fin 50000) q : S50000x64.Idx) := by
    funext a; apply Fin.ext
    match a with
    | ⟨0, _⟩ => show win3_4.index t 0 * 5000 + 1 * p.val = 5000 * t.val + p.val; rw [e8]; omega
    | ⟨1, _⟩ => show win3_4.index t 1 * 64 + 1 * q.val = q.val; rw [e9]; omega
  show k3_pay1 (iblk3 V c 0 t) (iblk3 V c 1 t) (iblk3 V c 2 t) (iblk3 V c 3 t) (ix2 p q)
    = Cert.Spec.layer (F := Ideal) (V c main_v71) (V c main_arg4) (V c main_v72) (V c main_v1) (((cfg3.win 4).blk t).view.emb (ix2 p q))
  rw [hemb, pay3_apply, layer3_apply]
  rw [iblk3_2_apply V c t, iblk3_3_apply V c t (ix2 p q) (ix2 (⟨5000 * t.val + p.val, by have := p.isLt; omega⟩ : Fin 50000) q) rfl rfl]
  refine congrArg (fun s => max (s + _ + _) _) (Finset.sum_congr rfl fun k _ => ?_)
  rw [iblk3_0_apply V c t (ix2 p k) (ix2 (⟨5000 * t.val + p.val, by have := p.isLt; omega⟩ : Fin 50000) k) rfl rfl, iblk3_1_apply V c t]

theorem mem_blk3_4 (t : Fin cfg3.N) (i : S50000x64.Idx) :
    i ∈ ((cfg3.win 4).blk t).view.set
      ↔ ∀ a : Fin 2, win3_4.index t a * S5000x64.size a ≤ (i a).val ∧ (i a).val < win3_4.index t a * S5000x64.size a + S5000x64.size a := by
  show i ∈ ((View.whole main_v73).slice (win3_4.rect t)).set ↔ _
  rw [View.set_slice_whole, Rect.mem_set_unit]
  exact Iff.rfl

theorem covered3_4 (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, lt_of_lt_of_eq (by omega) (N_3.symm : 10 = cfg3.N)⟩, rfl⟩
  obtain ⟨-, -, -, -, -, -, -, -, e8, e9⟩ := idx_facts3 t
  refine ⟨t, flush3_4 t, ?_⟩
  rw [mem_blk3_4]
  intro a
  match a with
  | ⟨0, _⟩ =>
    show win3_4.index t 0 * 5000 ≤ (i 0).val ∧ (i 0).val < win3_4.index t 0 * 5000 + 5000
    rw [e8, ht]; omega
  | ⟨1, _⟩ =>
    show win3_4.index t 1 * 64 ≤ (i 1).val ∧ (i 1).val < win3_4.index t 1 * 64 + 64
    rw [e9]; omega

-- The ten row blocks written back tile the output array, each the reference's stage on its rows.
theorem final3 (c : Dev nD) :
    (dat3 (F := Ideal) V c).arrAt 4 cfg3.N
      = (Cert.Spec.layer (F := Ideal) (V c main_v71) (V c main_arg4) (V c main_v72) (V c main_v1) : S50000x64.Idx → Elt Ideal .f32) :=
  (dat3 V c).arrAt_eq_of_cover 4 (step3 V c) (fun t _ => flushed3_eq V c t) covered3_4

end Value3

end Cert.KernelIdeal.Frame

end
-- ==== Proof.KI.Reg4.lean ====
import proofs.«426835_j41618233099040_1_alg».proof.Proof.Gen.KernelIdeal.Launch
import proofs.«426835_j41618233099040_1_alg».proof.Proof.Gen.KernelIdeal.Skeleton
import proofs.«426835_j41618233099040_1_alg».proof.Proof.Gen.KernelIdeal.Points
import proofs.«426835_j41618233099040_1_alg».proof.Proof.Spec
import proofs.«426835_j41618233099040_1_alg».proof.Proof.LibRowOps
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S5000x192 := Rect.unit (s := S5000x192) ![0, 0] S5000x192.size inb_S5000x192_S5000x192_0_0
abbrev r4_1 : Rect S192x64 := Rect.unit (s := S192x64) ![0, 0] S192x64.size inb_S192x64_S192x64_0_0
abbrev r4_2 : Rect S1x64 := Rect.unit (s := S1x64) ![0, 0] S1x64.size inb_S1x64_S1x64_0_0
abbrev r4_3 : Rect S5000x64 := Rect.unit (s := S5000x64) ![0, 0] S5000x64.size inb_S5000x64_S5000x64_0_0

def out4_3 (x0 : Vec F S5000x192 .f32) (x1 : Vec F S192x64 .f32) (x2 : Vec F S1x64 .f32) : Vec F S5000x64 .f32 :=
  View.canon [⟨r4_3, k4_pay1 (View.ld x0 r4_0) (View.ld x1 r4_1) (View.ld x2 r4_2)⟩]

theorem cover4_3 (p0 : Vec F S5000x64 .f32) (y : S5000x64.Idx) :
    ∃ pc ∈ ([⟨r4_3, p0⟩] : List (View.Piece (Elt F) S5000x64 .f32)), y ∈ pc.1.set :=
  View.cover_of_tiled [⟨r4_3, p0⟩] S5000x64.size (by rfl) y

-- One symbolic run of the body: each input read whole, the output stored whole once.
set_option maxHeartbeats 1000000 in
theorem sound_kernel4 (c : Dev nD) (E : Set ℕ) (i : grid4.Coords) (arg1 : Memref sig .tc .vmem S5000x192 .f32) (harg1 : arg1.IsWhole)
    (arg2 : Memref sig .tc .vmem S192x64 .f32) (harg2 : arg2.IsWhole) (arg3 : Memref sig .tc .vmem S1x64 .f32) (harg3 : arg3.IsWhole)
    (arg4 : Memref sig .tc .vmem S5000x64 .f32) (harg4 : arg4.IsWhole)
    (x0 : Vec F S5000x192 .f32) (x1 : Vec F S192x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__outmsg_kernel i arg1 harg1 arg2 harg2 arg3 harg3 arg4 harg4) K := by
  simp only [cc4__outmsg_kernel_eq_skeleton]; unfold cc4__outmsg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

section Value
open Idealize.ShloMosaic.ValueIdx
open scoped BigOperators

variable (V : (c : Dev nD) → (b : Ref sig .tc) → Buf (Elt Ideal) ((c : Thread nD τ).loc b))

theorem zeros4 : (![0, 0] : Fin 2 → Nat) = fun _ => 0 := funext fun a => by fin_cases a <;> rfl

theorem pay4_apply (x0 : Vec Ideal S5000x192 .f32) (x1 : Vec Ideal S192x64 .f32) (x2 : Vec Ideal S1x64 .f32) (p : Fin 5000) (q : Fin 64) :
    k4_pay1 x0 x1 x2 (ix2 p q)
      = max ((∑ k : Fin 192, x0 (ix2 p k) * x1 (ix2 k q)) + x2 (ix2 (0 : Fin 1) q)) (Ideal.ofBits .f32 0x00000000#32) := by
  unfold k4_pay1
  simp only [shapeCast_self]
  rw [maximumf_apply, addf_apply, broadcast_apply,
    Cert.LibRowOps.matmul_plain_apply dot_S5000x192_S192x64_S5000x64_1_0_0_1_n_n rfl,
    broadcastTo_1b_ab_apply]
  rfl

theorem spec4_apply (X : FVec Ideal S50000x192 .f32) (W : FVec Ideal S192x64 .f32) (b : FVec Ideal S1x64 .f32) (r : Fin 50000) (q : Fin 64) :
    Cert.Spec.outm X W b (ix2 r q)
      = max ((∑ k : Fin 192, X (ix2 r k) * W (ix2 k q)) + b (ix2 (0 : Fin 1) q)) (Ideal.ofBits .f32 0x00000000#32) := by
  unfold Cert.Spec.outm Cert.Spec.zero64
  rw [maximumf_apply, addf_apply,
    Cert.LibRowOps.dotGeneral_plain_apply Cert.ReferenceIdeal.dot_S50000x192_S192x64_S50000x64_1_0_0_1_n_n rfl]
  have e1 : ∀ h, broadcastInDim Cert.ReferenceIdeal.S50000x64 ![0, 1] h b (ix2 r q) = b (ix2 (0 : Fin 1) q) := fun h =>
    broadcastInDim_apply _ h b (ix2 r q) (ix2 (0 : Fin 1) q) fun a => by
      match a with
      | ⟨0, _⟩ => rfl
      | ⟨1, _⟩ => rfl
  have e2 : ∀ h, broadcastInDim Cert.ReferenceIdeal.S50000x64 ![] h (constant (F := Ideal) Cert.ReferenceIdeal.S_ .f32 0x00000000#32) (ix2 r q) = Ideal.ofBits .f32 0x00000000#32 := fun h =>
    (broadcastInDim_apply _ h _ (ix2 r q) ix0 fun a => a.elim0).trans (constant_apply _ _)
  rw [e1, e2]

theorem index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem iblk4_0_apply (c : Dev nD) (t : Fin cfg4.N) (x : S5000x192.Idx) (k : S50000x192.Idx)
    (hk0 : (k 0).val = 5000 * t.val + (x 0).val) (hk1 : (k 1).val = (x 1).val) :
    (iblk4 V c 0 t : Vec Ideal S5000x192 .f32) x = (V c main_v86 : S50000x192.Idx → EReal) k := by
  obtain ⟨e0, e1, -⟩ := index4 t
  unfold iblk4
  rw [View.read_apply]
  show V c main_v86 _ = V c main_v86 _
  congr 1
  funext a
  apply Fin.ext
  match a with
  | ⟨0, _⟩ => show win4_0.index t (0 : Fin 2) * 5000 + 1 * (x 0).val = (k 0).val; rw [e0, hk0]; omega
  | ⟨1, _⟩ => show win4_0.index t (1 : Fin 2) * 192 + 1 * (x 1).val = (k 1).val; rw [e1, hk1]; omega

theorem iblk4_1_apply (c : Dev nD) (t : Fin cfg4.N) (x : S192x64.Idx) :
    (iblk4 V c 1 t : Vec Ideal S192x64 .f32) x = (V c main_arg6 : S192x64.Idx → EReal) x := by
  obtain ⟨-, -, e0, e1, -⟩ := index4 t
  unfold iblk4
  rw [View.read_apply]
  show V c main_arg6 _ = V c main_arg6 _
  congr 1
  funext a
  apply Fin.ext
  match a with
  | ⟨0, _⟩ => show win4_1.index t (0 : Fin 2) * 192 + 1 * (x 0).val = (x 0).val; rw [e0]; omega
  | ⟨1, _⟩ => show win4_1.index t (1 : Fin 2) * 64 + 1 * (x 1).val = (x 1).val; rw [e1]; omega

theorem iblk4_2_apply (c : Dev nD) (t : Fin cfg4.N) (x : S1x64.Idx) :
    (iblk4 V c 2 t : Vec Ideal S1x64 .f32) x = (V c main_v87 : S1x64.Idx → EReal) x := by
  obtain ⟨-, -, -, -, e0, e1, -⟩ := index4 t
  unfold iblk4
  rw [View.read_apply]
  show V c main_v87 _ = V c main_v87 _
  congr 1
  funext a
  apply Fin.ext
  match a with
  | ⟨0, _⟩ => show win4_2.index t (0 : Fin 2) * 1 + 1 * (x 0).val = (x 0).val; rw [e0]; omega
  | ⟨1, _⟩ => show win4_2.index t (1 : Fin 2) * 64 + 1 * (x 1).val = (x 1).val; rw [e1]; omega

theorem flushed4_eq (c : Dev nD) (t : Fin cfg4.N) :
    (dat4 (F := Ideal) V c).flushed 3 t = ((cfg4.win 3).blk t).view.read (Elt Ideal)
      (Cert.Spec.outm (F := Ideal) (V c main_v86) (V c main_arg6) (V c main_v87) : Buf (Elt Ideal) ((c : Thread nD τ).loc main_v88)) := by
  show (cfg4.win 3).cut (grid4.coords t) ((dat4 (F := Ideal) V c).after 3 t) = _
  rw [after4_3]
  unfold out4_3
  rw [View.canon_unit_zero zeros4]
  simp only [View.ld_unit_zero (S := S5000x192) zeros4, View.ld_unit_zero (S := S192x64) zeros4, View.ld_unit_zero (S := S1x64) zeros4]
  obtain ⟨-, -, -, -, -, -, e6, e7⟩ := index4 t
  have ht : t.val < 10 := Nat.lt_of_lt_of_eq t.isLt (show cfg4.N = 10 from N_4)
  funext j
  obtain ⟨p, q, rfl⟩ : ∃ (p : Fin 5000) (q : Fin 64), j = ix2 p q := ⟨j 0, j 1, eq_ix2 j⟩
  have hemb : ((cfg4.win 3).blk t).view.emb (ix2 p q) = (ix2 (⟨5000 * t.val + p.val, by omega⟩ : Fin 50000) q : S50000x64.Idx) := by
    funext a
    apply Fin.ext
    match a with
    | ⟨0, _⟩ => show win4_3.index t (0 : Fin 2) * 5000 + 1 * p.val = 5000 * t.val + p.val; rw [e6]; omega
    | ⟨1, _⟩ => show win4_3.index t (1 : Fin 2) * 64 + 1 * q.val = q.val; rw [e7]; omega
  refine (pay4_apply (iblk4 V c 0 t) (iblk4 V c 1 t) (iblk4 V c 2 t) p q).trans ?_
  refine Eq.trans ?_ ((spec4_apply (V c main_v86) (V c main_arg6) (V c main_v87) ⟨5000 * t.val + p.val, by omega⟩ q).symm.trans
    (congrArg (Cert.Spec.outm (F := Ideal) (V c main_v86) (V c main_arg6) (V c main_v87) : S50000x64.Idx → EReal) hemb.symm))
  exact congrArg₂ max (congrArg₂ (· + ·)
    (Finset.sum_congr rfl fun k _ => congrArg₂ (· * ·) (iblk4_0_apply V c t (ix2 p k) (ix2 ⟨5000 * t.val + p.val, by omega⟩ k) rfl rfl)
      (iblk4_1_apply V c t (ix2 k q)))
    (iblk4_2_apply V c t (ix2 (0 : Fin 1) q))) rfl

theorem mem_blk4 (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v88).slice (win4_3.rect t)).set ↔ _
  rw [View.set_slice_whole, Rect.mem_set_unit]
  exact Iff.rfl

theorem cover4 (i : S50000x64.Idx) : ∃ t : Fin cfg4.N, (cfg4.win 3).flush t = true ∧ i ∈ ((cfg4.win 3).blk t).view.set := by
  have h0 : (i 0).val < 50000 := (i 0).isLt
  have h1 : (i 1).val < 64 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, -, -, e6, e7⟩ := index4 t
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; rw [e6, ht]; omega
  | ⟨1, _⟩ => show win4_3.index t (1 : Fin 2) * 64 ≤ (i 1).val ∧ (i 1).val < win4_3.index t (1 : Fin 2) * 64 + 64; rw [e7]; omega

-- The ten row blocks written back tile the output array, each the reference's stage on its rows.
theorem final4 (c : Dev nD) :
    (dat4 (F := Ideal) V c).arrAt 3 cfg4.N
      = (Cert.Spec.outm (F := Ideal) (V c main_v86) (V c main_arg6) (V c main_v87) : Buf (Elt Ideal) ((c : Thread nD τ).loc main_v88)) :=
  (dat4 (F := Ideal) V c).arrAt_eq_of_cover 3 _ (fun t _ => flushed4_eq V c t) cover4

end Value

end Cert.KernelIdeal.Frame

end
-- ==== Proof.LibScatter.lean ====
import Idealize.ShloMosaic.PureOps.Ideal
import Idealize.ShloMosaic.PureOps.Ideal.Laws
import Idealize.ShloMosaic.Lib.ValueIdx
import Idealize.ShloMosaic.Lib.Pipeline.Value

noncomputable section

namespace Cert.LibScatter

open Idealize.ShloMosaic Idealize.ShloMosaic.ValueIdx
open scoped BigOperators

section Rows
variable {N M C w : Nat}

abbrev rowsDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable (wf : ScatterDims.WF ⟨2, ![N, C]⟩ ⟨2, ![M, 1]⟩ ⟨2, ![M, C]⟩ [1] [0] [0] 1)

theorem rows_start0 (idx : IVec ⟨2, ![M, 1]⟩ w) (j : (⟨2, ![M, C]⟩ : Shape).Idx) :
    (rowsDims N M C wf).start j idx 0 = (idx (ix2 (j 0) 0)).toInt := by
  unfold ScatterDims.start
  rw [dif_pos (show (0 : Fin 2) ∈ (rowsDims N M C wf).scatterDimsToOperandDims from List.mem_singleton.mpr rfl)]
  have hsi : (rowsDims N M C wf).siIdx j ⟨List.idxOf (0 : Fin 2) (rowsDims N M C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rows_start1 (idx : IVec ⟨2, ![M, 1]⟩ w) (j : (⟨2, ![M, C]⟩ : Shape).Idx) :
    (rowsDims N M C wf).start j idx 1 = 0 := by
  unfold ScatterDims.start
  exact dif_neg (by decide : ¬ (1 : Fin 2) ∈ ([0] : List (Fin 2)))

theorem rows_window0 (j : (⟨2, ![M, C]⟩ : Shape).Idx) : (rowsDims N M C wf).window j 0 = 0 := by
  unfold ScatterDims.window
  exact dif_neg (by decide : ¬ (0 : Fin 2) ∈ (List.finRange 2).filter (fun a => a ∉ ([0] : List (Fin 2))))

theorem rows_window1 (j : (⟨2, ![M, C]⟩ : Shape).Idx) : (rowsDims N M C wf).window j 1 = (j 1).val := by
  unfold ScatterDims.window
  have h1 : (1 : Fin 2) ∈ (rowsDims N M C wf).sKept :=
    (by decide : (1 : Fin 2) ∈ (List.finRange 2).filter (fun a => a ∉ ([0] : List (Fin 2))))
  rw [dif_pos h1]
  rfl

theorem rows_resultIdx_eq_some (idx : IVec ⟨2, ![M, 1]⟩ w) (j : (⟨2, ![M, C]⟩ : Shape).Idx)
    (i : (⟨2, ![N, C]⟩ : Shape).Idx) :
    (rowsDims N M C wf).resultIdx? j idx = some i ↔
      (idx (ix2 (j 0) 0)).toInt = ((i 0).val : ℤ) ∧ (j 1).val = (i 1).val := by
  have hi0 : (i 0).val < N := idx2_lt0 i
  have hi1 : (i 1).val < C := idx2_lt1 i
  have hj1 : (j 1).val < C := idx2_lt1 j
  unfold ScatterDims.resultIdx?
  split
  · next h =>
    have h0 := h 0
    rw [rows_start0, rows_window0] at h0
    rw [Option.some.injEq]
    constructor
    · intro hfi
      have e0 := congrArg Fin.val (congrFun hfi 0)
      have e1 := congrArg Fin.val (congrFun hfi 1)
      simp only [rows_start0, rows_window0, rows_start1, rows_window1] at e0 e1
      constructor <;> omega
    · rintro ⟨e0, e1⟩
      funext a; refine Fin.ext ?_
      match a with
      | ⟨0, _⟩ =>
        show ((rowsDims N M C wf).start j idx 0 + ((rowsDims N M C wf).window j 0 : ℤ)).toNat = (i 0).val
        rw [rows_start0, rows_window0]; omega
      | ⟨1, _⟩ =>
        show ((rowsDims N M C wf).start j idx 1 + ((rowsDims N M C wf).window j 1 : ℤ)).toNat = (i 1).val
        rw [rows_start1, rows_window1]; omega
  · next h =>
    constructor
    · intro hn; exact absurd hn (by simp)
    · rintro ⟨e0, e1⟩
      exfalso; apply h
      intro a
      match a with
      | ⟨0, _⟩ =>
        show 0 ≤ (rowsDims N M C wf).start j idx 0 + ((rowsDims N M C wf).window j 0 : ℤ) ∧
          (rowsDims N M C wf).start j idx 0 + ((rowsDims N M C wf).window j 0 : ℤ) < (N : ℤ)
        rw [rows_start0, rows_window0]; omega
      | ⟨1, _⟩ =>
        show 0 ≤ (rowsDims N M C wf).start j idx 1 + ((rowsDims N M C wf).window j 1 : ℤ) ∧
          (rowsDims N M C wf).start j idx 1 + ((rowsDims N M C wf).window j 1 : ℤ) < (C : ℤ)
        rw [rows_start1, rows_window1]; omega

theorem scatterAdd_rowsDims_apply {φ : FTy} (x : FVec Ideal ⟨2, ![N, C]⟩ φ) (idx : IVec ⟨2, ![M, 1]⟩ w)
    (upd : FVec Ideal ⟨2, ![M, C]⟩ φ) (n : Fin N) (q : Fin C) :
    Host.scatterAdd (rowsDims N M C wf) x idx upd (ix2 n q)
      = x (ix2 n q) + ∑ e ∈ Finset.univ.filter (fun e : Fin M => (idx (ix2 e 0)).toInt = (n.val : ℤ)), upd (ix2 e q) := by
  show Ideal.hostScatterAdd (rowsDims N M C wf) x idx upd (ix2 n q) = _
  unfold Ideal.hostScatterAdd
  congr 1
  symm
  refine Finset.sum_bij (fun e _ => ix2 e q) ?_ ?_ ?_ ?_
  · intro e he
    rw [Finset.mem_filter] at he ⊢
    exact ⟨Finset.mem_univ _, (rows_resultIdx_eq_some wf idx (ix2 e q) (ix2 n q)).2 ⟨he.2, rfl⟩⟩
  · intro e _ e' _ hee
    exact congrFun hee 0
  · intro j hj
    rw [Finset.mem_filter] at hj
    have hj' := (rows_resultIdx_eq_some wf idx j (ix2 n q)).1 hj.2
    refine ⟨j 0, Finset.mem_filter.2 ⟨Finset.mem_univ _, hj'.1⟩, ?_⟩
    rw [eq_ix2 j]
    congr 1
    exact (Fin.ext hj'.2).symm
  · intro e _; rfl

theorem scatterAdd_rows_apply {φ : FTy} (d : ScatterDims ⟨2, ![N, C]⟩ ⟨2, ![M, 1]⟩ ⟨2, ![M, C]⟩)
    (hu : d.updateWindowDims = [1]) (hi : d.insertedWindowDims = [0]) (hs : d.scatterDimsToOperandDims = [0])
    (hv : d.indexVectorDim = 1) (x : FVec Ideal ⟨2, ![N, C]⟩ φ) (idx : IVec ⟨2, ![M, 1]⟩ w)
    (upd : FVec Ideal ⟨2, ![M, C]⟩ φ) (n : Fin N) (q : Fin C) :
    Host.scatterAdd d x idx upd (ix2 n q)
      = x (ix2 n q) + ∑ e ∈ Finset.univ.filter (fun e : Fin M => (idx (ix2 e 0)).toInt = (n.val : ℤ)), upd (ix2 e q) := by
  obtain ⟨uw, iw, sd, iv, wf⟩ := d
  dsimp only at hu hi hs hv
  subst hu hi hs hv
  exact scatterAdd_rowsDims_apply wf x idx upd n q

end Rows

section Vec
variable {N M w : Nat}

abbrev vecDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable (wf : ScatterDims.WF ⟨1, ![N]⟩ ⟨2, ![M, 1]⟩ ⟨1, ![M]⟩ [] [0] [0] 1)

theorem vec_start0 (idx : IVec ⟨2, ![M, 1]⟩ w) (j : (⟨1, ![M]⟩ : Shape).Idx) :
    (vecDims N M wf).start j idx 0 = (idx (ix2 (j 0) 0)).toInt := by
  unfold ScatterDims.start
  rw [dif_pos (show (0 : Fin 1) ∈ (vecDims N M wf).scatterDimsToOperandDims from List.mem_singleton.mpr rfl)]
  have hsi : (vecDims N M wf).siIdx j ⟨List.idxOf (0 : Fin 1) (vecDims N M wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem vec_window0 (j : (⟨1, ![M]⟩ : Shape).Idx) : (vecDims N M wf).window j 0 = 0 := by
  unfold ScatterDims.window
  exact dif_neg (by decide : ¬ (0 : Fin 1) ∈ (List.finRange 1).filter (fun a => a ∉ ([0] : List (Fin 1))))

theorem vec_resultIdx_eq_some (idx : IVec ⟨2, ![M, 1]⟩ w) (j : (⟨1, ![M]⟩ : Shape).Idx) (i : (⟨1, ![N]⟩ : Shape).Idx) :
    (vecDims N M wf).resultIdx? j idx = some i ↔ (idx (ix2 (j 0) 0)).toInt = ((i 0).val : ℤ) := by
  have hi0 : (i 0).val < N := (i 0).isLt
  unfold ScatterDims.resultIdx?
  split
  · next h =>
    have h0 := h 0
    rw [vec_start0, vec_window0] at h0
    rw [Option.some.injEq]
    constructor
    · intro hfi
      have e0 := congrArg Fin.val (congrFun hfi 0)
      simp only [vec_start0, vec_window0] at e0
      omega
    · intro e0
      funext a; refine Fin.ext ?_
      obtain rfl : a = 0 := Subsingleton.elim _ _
      show ((vecDims N M wf).start j idx 0 + ((vecDims N M wf).window j 0 : ℤ)).toNat = (i 0).val
      rw [vec_start0, vec_window0]; omega
  · next h =>
    constructor
    · intro hn; exact absurd hn (by simp)
    · intro e0
      exfalso; apply h
      intro a
      obtain rfl : a = 0 := Subsingleton.elim _ _
      show 0 ≤ (vecDims N M wf).start j idx 0 + ((vecDims N M wf).window j 0 : ℤ) ∧
        (vecDims N M wf).start j idx 0 + ((vecDims N M wf).window j 0 : ℤ) < (N : ℤ)
      rw [vec_start0, vec_window0]; omega

theorem scatterAdd_vecDims_apply {φ : FTy} (x : FVec Ideal ⟨1, ![N]⟩ φ) (idx : IVec ⟨2, ![M, 1]⟩ w)
    (upd : FVec Ideal ⟨1, ![M]⟩ φ) (n : Fin N) :
    Host.scatterAdd (vecDims N M wf) x idx upd (ix1 n)
      = x (ix1 n) + ∑ e ∈ Finset.univ.filter (fun e : Fin M => (idx (ix2 e 0)).toInt = (n.val : ℤ)), upd (ix1 e) := by
  show Ideal.hostScatterAdd (vecDims N M wf) x idx upd (ix1 n) = _
  unfold Ideal.hostScatterAdd
  congr 1
  symm
  refine Finset.sum_bij (fun e _ => ix1 e) ?_ ?_ ?_ ?_
  · intro e he
    rw [Finset.mem_filter] at he ⊢
    exact ⟨Finset.mem_univ _, (vec_resultIdx_eq_some wf idx (ix1 e) (ix1 n)).2 he.2⟩
  · intro e _ e' _ hee
    exact congrFun hee 0
  · intro j hj
    rw [Finset.mem_filter] at hj
    have hj' := (vec_resultIdx_eq_some wf idx j (ix1 n)).1 hj.2
    exact ⟨j 0, Finset.mem_filter.2 ⟨Finset.mem_univ _, hj'⟩, (eq_ix1 j).symm⟩
  · intro e _; rfl

theorem scatterAdd_vec_apply {φ : FTy} (d : ScatterDims ⟨1, ![N]⟩ ⟨2, ![M, 1]⟩ ⟨1, ![M]⟩)
    (hu : d.updateWindowDims = []) (hi : d.insertedWindowDims = [0]) (hs : d.scatterDimsToOperandDims = [0])
    (hv : d.indexVectorDim = 1) (x : FVec Ideal ⟨1, ![N]⟩ φ) (idx : IVec ⟨2, ![M, 1]⟩ w)
    (upd : FVec Ideal ⟨1, ![M]⟩ φ) (n : Fin N) :
    Host.scatterAdd d x idx upd (ix1 n)
      = x (ix1 n) + ∑ e ∈ Finset.univ.filter (fun e : Fin M => (idx (ix2 e 0)).toInt = (n.val : ℤ)), upd (ix1 e) := by
  obtain ⟨uw, iw, sd, iv, wf⟩ := d
  dsimp only at hu hi hs hv
  subst hu hi hs hv
  exact scatterAdd_vecDims_apply wf x idx upd n

end Vec

section Gather
variable {α : Type} {N M C w : Nat}

abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

theorem gather_rowGatherDims_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (q : Fin C) :
    Host.gather (rowGatherDims N M C wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGatherDims N M C wf).start (ix2 e q) idx 0 + (rowGatherDims N M C wf).batchCoord (ix2 e q) 0
      + (rowGatherDims N M C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e q) ⟨List.idxOf (0 : Fin 2) (rowGatherDims N M C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N M C wf).start (ix2 e q) idx 1 + (rowGatherDims N M C wf).batchCoord (ix2 e q) 1
      + (rowGatherDims N M C wf).offCoord (ix2 e q) 1 = q.val
    rw [GatherDims.batchCoord_eq_zero _ _ _ List.not_mem_nil]
    have hs : (rowGatherDims N M C wf).start (ix2 e q) idx 1 = 0 := by
      unfold GatherDims.start
      exact dif_neg (by decide : ¬ (1 : Fin 2) ∈ ([0] : List (Fin 2)))
    have hk : (1 : Fin 2) ∈ (rowGatherDims N M C wf).sKept :=
      (GatherDims.mem_sKept _ _).mpr ⟨(by decide : ¬ (1 : Fin 2) ∈ ([0] : List (Fin 2))), List.not_mem_nil⟩
    have ho : (rowGatherDims N M C wf).offCoord (ix2 e q) 1 = q.val := by
      unfold GatherDims.offCoord
      rw [dif_pos hk]
      rfl
    rw [hs, ho]
    omega

theorem gather_rows_apply (hN : 0 < N) (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (q : Fin C) :
    Host.gather d x idx (ix2 e q) = x (ix2 ⟨min (idx (ix2 e 0)).toInt.toNat (N - 1), by omega⟩ q) := by
  obtain ⟨od, cd, ob, sb, sm, iv, ss, wf⟩ := d
  dsimp only at hod hcd hob hsb hsm hiv hss
  subst hod hcd hob hsb hsm hiv hss
  exact gather_rowGatherDims_apply hN wf x idx e q

end Gather

section Cat3
variable {α : Type}

theorem cat3_apply {n a b c K : ℕ} (x : (⟨2, ![n, a]⟩ : Shape).Idx → α) (y : (⟨2, ![n, b]⟩ : Shape).Idx → α)
    (z : (⟨2, ![n, c]⟩ : Shape).Idx → α)
    (h : Shape.Concatenates [(⟨2, ![n, a]⟩ : Shape), ⟨2, ![n, b]⟩, ⟨2, ![n, c]⟩] ⟨2, ![n, K]⟩ 1)
    (p : Fin n) (q : Fin K) :
    concatenate ⟨2, ![n, K]⟩ 1 [⟨⟨2, ![n, a]⟩, x⟩, ⟨⟨2, ![n, b]⟩, y⟩, ⟨⟨2, ![n, c]⟩, z⟩] h (ix2 p q)
      = if h1 : q.val < a then x (ix2 p ⟨q.val, h1⟩)
        else if h2 : q.val < a + b then y (ix2 p ⟨q.val - a, by omega⟩)
        else z (ix2 p ⟨q.val - (a + b), by have hK : a + (b + (c + 0)) = K := h.2.2; omega⟩) := by
  have hK : a + (b + (c + 0)) = K := h.2.2
  split
  · next h1 =>
    exact concatenate_apply_piece 1 [⟨⟨2, ![n, a]⟩, x⟩, ⟨⟨2, ![n, b]⟩, y⟩, ⟨⟨2, ![n, c]⟩, z⟩] h (ix2 p q) 0 (by simp) _ x rfl rfl 0 rfl (ix2 p ⟨q.val, h1⟩)
      (fun bb hb => by match bb with | ⟨0, _⟩ => rfl | ⟨1, _⟩ => exact absurd rfl hb)
      (by show 0 + q.val = q.val; omega)
  · next h1 =>
    split
    · next h2 =>
      exact concatenate_apply_piece 1 [⟨⟨2, ![n, a]⟩, x⟩, ⟨⟨2, ![n, b]⟩, y⟩, ⟨⟨2, ![n, c]⟩, z⟩] h (ix2 p q) 1 (by simp) _ y rfl rfl a (by simp) (ix2 p ⟨q.val - a, by omega⟩)
        (fun bb hb => by match bb with | ⟨0, _⟩ => rfl | ⟨1, _⟩ => exact absurd rfl hb)
        (by show a + (q.val - a) = q.val; omega)
    · next h2 =>
      exact concatenate_apply_piece 1 [⟨⟨2, ![n, a]⟩, x⟩, ⟨⟨2, ![n, b]⟩, y⟩, ⟨⟨2, ![n, c]⟩, z⟩] h (ix2 p q) 2 (by simp) _ z rfl rfl (a + b) (by simp)
        (ix2 p ⟨q.val - (a + b), by omega⟩)
        (fun bb hb => by match bb with | ⟨0, _⟩ => rfl | ⟨1, _⟩ => exact absurd rfl hb)
        (by show a + b + (q.val - (a + b)) = q.val; omega)

end Cat3

end Cert.LibScatter

end
-- ==== Proof.PoolMath.lean ====
import proofs.«426835_j41618233099040_1_alg».proof.Proof.Gen.KernelIdeal.Skeleton
import proofs.«426835_j41618233099040_1_alg».proof.Proof.Spec
import proofs.«426835_j41618233099040_1_alg».proof.Proof.LibRowOps
import Idealize.ShloMosaic.Lib.ValueIdx
import Idealize.ShloMosaic.Lib.Pipeline.Value
import Idealize.ShloMosaic.Lib.ValueLayout
import Idealize.ShloMosaic.PureOps.Ideal.Laws
import proofs.«426835_j41618233099040_1_alg».proof.Proof.LibScatter

noncomputable section

namespace Cert.PoolMath

open Idealize.ShloMosaic Idealize.ShloMosaic.ValueIdx Cert.KernelIdeal Cert.KernelIdeal.Gen
open scoped BigOperators

theorem tdot_lhs_0 (i : S256x64.Idx) (q : dot_S5000x256_S5000x64_S256x64_0_0_1_1_n_n.contr.Idx) :
    (dot_S5000x256_S5000x64_S256x64_0_0_1_1_n_n.lhsIdx i q 0).val = (q ⟨0, Nat.one_pos⟩).val :=
  dot_S5000x256_S5000x64_S256x64_0_0_1_1_n_n.lhsIdx_val_of_single rfl i q

theorem tdot_lhs_1 (i : S256x64.Idx) (q : dot_S5000x256_S5000x64_S256x64_0_0_1_1_n_n.contr.Idx) :
    (dot_S5000x256_S5000x64_S256x64_0_0_1_1_n_n.lhsIdx i q 1).val = (i 0).val := by
  unfold DotDims.lhsIdx
  rw [dif_neg (show ¬(1 : Fin S5000x256.rank) ∈ dot_S5000x256_S5000x64_S256x64_0_0_1_1_n_n.lhsBatch from List.not_mem_nil),
    dif_pos (show (1 : Fin S5000x256.rank) ∈ dot_S5000x256_S5000x64_S256x64_0_0_1_1_n_n.lhsNonContracting from List.mem_singleton.mpr rfl)]
  rfl

theorem tdot_rhs_0 (i : S256x64.Idx) (q : dot_S5000x256_S5000x64_S256x64_0_0_1_1_n_n.contr.Idx) :
    (dot_S5000x256_S5000x64_S256x64_0_0_1_1_n_n.rhsIdx i q 0).val = (q ⟨0, Nat.one_pos⟩).val :=
  dot_S5000x256_S5000x64_S256x64_0_0_1_1_n_n.rhsIdx_val_of_single rfl i q

theorem tdot_rhs_1 (i : S256x64.Idx) (q : dot_S5000x256_S5000x64_S256x64_0_0_1_1_n_n.contr.Idx) :
    (dot_S5000x256_S5000x64_S256x64_0_0_1_1_n_n.rhsIdx i q 1).val = (i 1).val := by
  unfold DotDims.rhsIdx
  rw [dif_neg (show ¬(1 : Fin S5000x64.rank) ∈ dot_S5000x256_S5000x64_S256x64_0_0_1_1_n_n.rhsBatch from List.not_mem_nil),
    dif_pos (show (1 : Fin S5000x64.rank) ∈ dot_S5000x256_S5000x64_S256x64_0_0_1_1_n_n.rhsNonContracting from List.mem_singleton.mpr rfl)]
  rfl

theorem tdot_sum (l : S5000x256.Idx → EReal) (x : S5000x64.Idx → EReal) (g : Fin 256) (h : Fin 64) :
    ∑ k : dot_S5000x256_S5000x64_S256x64_0_0_1_1_n_n.contr.Idx,
        l (dot_S5000x256_S5000x64_S256x64_0_0_1_1_n_n.lhsIdx (ix2 g h) k) * x (dot_S5000x256_S5000x64_S256x64_0_0_1_1_n_n.rhsIdx (ix2 g h) k)
      = ∑ r : Fin 5000, l (ix2 r g) * x (ix2 r h) := by
  rw [← Equiv.sum_comp (contrEquiv1 dot_S5000x256_S5000x64_S256x64_0_0_1_1_n_n 5000 rfl rfl).symm]
  refine Finset.sum_congr rfl fun k _ => ?_
  have hk := contrEquiv1_symm_val dot_S5000x256_S5000x64_S256x64_0_0_1_1_n_n 5000 rfl rfl k
  have el : dot_S5000x256_S5000x64_S256x64_0_0_1_1_n_n.lhsIdx (ix2 g h) ((contrEquiv1 dot_S5000x256_S5000x64_S256x64_0_0_1_1_n_n 5000 rfl rfl).symm k) = ix2 k g :=
    funext fun a => Fin.ext (by
      match a with
      | ⟨0, _⟩ => exact (tdot_lhs_0 _ _).trans hk
      | ⟨1, _⟩ => exact tdot_lhs_1 _ _)
  have er : dot_S5000x256_S5000x64_S256x64_0_0_1_1_n_n.rhsIdx (ix2 g h) ((contrEquiv1 dot_S5000x256_S5000x64_S256x64_0_0_1_1_n_n 5000 rfl rfl).symm k) = ix2 k h :=
    funext fun a => Fin.ext (by
      match a with
      | ⟨0, _⟩ => exact (tdot_rhs_0 _ _).trans hk
      | ⟨1, _⟩ => exact tdot_rhs_1 _ _)
  rw [el, er]

theorem colBcast_apply {α : Type} {n k : ℕ} (v : (⟨2, ![n, 1]⟩ : Shape).Idx → α) (hb : (⟨2, ![n, 1]⟩ : Shape).Broadcasts ⟨2, ![n, k]⟩)
    (r : Fin n) (g : Fin k) : broadcastTo ⟨2, ![n, k]⟩ v hb (ix2 r g) = v (ix2 r 0) := by
  refine broadcastTo_apply v hb (ix2 r g) (ix2 r 0) fun ax => ?_
  match ax with
  | ⟨0, _⟩ =>
    show r.val = if n = 1 then 0 else r.val
    split
    · have := r.isLt; omega
    · rfl
  | ⟨1, _⟩ => rfl

theorem onehot_word (a b : BitVec 32) :
    FloatOps.sitofp (F := Ideal) .f32 ((IntOp.cmpi .eq a b).setWidth 32) = if a = b then 1 else 0 := by
  show (((((BitVec.ofBool (a == b)).setWidth 32).toInt : ℤ) : ℝ) : EReal) = _
  by_cases h : a = b
  · rw [if_pos h, beq_iff_eq.mpr h]
    have e : ((BitVec.ofBool true).setWidth 32).toInt = 1 := by decide
    rw [e]; simp
  · rw [if_neg h, beq_eq_false_iff_ne.mpr h]
    have e : ((BitVec.ofBool false).setWidth 32).toInt = 0 := by decide
    rw [e]; simp

theorem pay2_apply (b : IVec S5000x1 32) (x : FVec Ideal S5000x64 .f32) (acc : FVec Ideal S256x64 .f32) (g : Fin 256) (h : Fin 64) :
    k5_pay2 b x acc (ix2 g h)
      = acc (ix2 g h) + ∑ r : Fin 5000, (if b (ix2 r 0) = BitVec.ofNat 32 g.val then (1 : EReal) else 0) * x (ix2 r h) := by
  unfold k5_pay2
  simp only [shapeCast_self]
  rw [addf_apply]
  simp only [matmul]
  rw [Ideal.matmul_constant_zero_apply, tdot_sum]
  refine congrArg (acc (ix2 g h) + ·) (Finset.sum_congr rfl fun r _ => ?_)
  rw [truncf_apply, truncf_apply]
  show FloatOps.sitofp (F := Ideal) .f32 ((IntOp.cmpi .eq (broadcastTo S5000x256 b broadcasts_S5000x1_S5000x256 (ix2 r g))
    (iota .tc S5000x256 32 [1] iota_S5000x256_d1_w32 (ix2 r g))).setWidth 32) * x (ix2 r h) = _
  rw [colBcast_apply, iota_single_apply, onehot_word]

theorem pay1_apply (j : S256x64.Idx) : (k5_pay1 (F := Ideal)) j = 0 := by
  unfold k5_pay1
  simp only [shapeCast_self]
  exact Ideal.ofBits_zero_f32

def accB (xB : Fin 10 → FVec Ideal S5000x64 .f32) (bB : Fin 10 → IVec S5000x1 32) : ℕ → FVec Ideal S256x64 .f32
  | 0 => k5_pay2 (bB 0) (xB 0) (k5_pay1 (F := Ideal))
  | n + 1 => k5_pay2 (bB ⟨(n + 1) % 10, Nat.mod_lt _ (by decide)⟩) (xB ⟨(n + 1) % 10, Nat.mod_lt _ (by decide)⟩) (accB xB bB n)

theorem accB_zero (xB : Fin 10 → FVec Ideal S5000x64 .f32) (bB : Fin 10 → IVec S5000x1 32) :
    accB xB bB 0 = k5_pay2 (bB 0) (xB 0) (k5_pay1 (F := Ideal)) := rfl

theorem accB_succ (xB : Fin 10 → FVec Ideal S5000x64 .f32) (bB : Fin 10 → IVec S5000x1 32) (t : Fin 10) (n : ℕ) (ht : t.val = n + 1) :
    accB xB bB t.val = k5_pay2 (bB t) (xB t) (accB xB bB n) := by
  have e : (⟨(n + 1) % 10, Nat.mod_lt _ (by decide)⟩ : Fin 10) = t := Fin.ext (by show (n + 1) % 10 = t.val; have := t.isLt; omega)
  rw [ht]
  show k5_pay2 (F := Ideal) (bB ⟨(n + 1) % 10, _⟩) (xB ⟨(n + 1) % 10, _⟩) (accB xB bB n) = _
  rw [e]

def blockEquiv : Fin 10 × Fin 5000 ≃ Fin 50000 where
  toFun p := ⟨5000 * p.1.val + p.2.val, by have := p.1.isLt; have := p.2.isLt; omega⟩
  invFun n := (⟨n.val / 5000, by have := n.isLt; omega⟩, ⟨n.val % 5000, by omega⟩)
  left_inv p := by
    have h1 := p.1.isLt
    have h2 := p.2.isLt
    exact Prod.ext (Fin.ext (show (5000 * p.1.val + p.2.val) / 5000 = p.1.val by omega))
      (Fin.ext (show (5000 * p.1.val + p.2.val) % 5000 = p.2.val by omega))
  right_inv n := Fin.ext (show 5000 * (n.val / 5000) + n.val % 5000 = n.val by omega)

theorem sum_blocks (f : Fin 50000 → EReal) :
    ∑ n : Fin 50000, f n = ∑ t : Fin 10, ∑ r : Fin 5000, f ⟨5000 * t.val + r.val, by have := t.isLt; have := r.isLt; omega⟩ := by
  rw [← Equiv.sum_comp blockEquiv f, Fintype.sum_prod_type]
  rfl

theorem word_eq_iff (a : BitVec 32) (g : ℕ) (hg : g < 256) : a = BitVec.ofNat 32 g ↔ a.toInt = (g : ℤ) := by
  have e : (BitVec.ofNat 32 g).toInt = (g : ℤ) := by
    rw [BitVec.toInt_eq_toNat_cond, BitVec.toNat_ofNat]
    split <;> omega
  constructor
  · rintro rfl; exact e
  · intro h; exact BitVec.eq_of_toInt_eq (h.trans e.symm)

section Last
variable (X : FVec Ideal S50000x64 .f32) (B : IVec S50000x1 32) (xB : Fin 10 → FVec Ideal S5000x64 .f32) (bB : Fin 10 → IVec S5000x1 32)

def blockTerm (g : Fin 256) (h : Fin 64) (t : ℕ) : EReal :=
  ∑ r : Fin 5000, (if bB ⟨t % 10, Nat.mod_lt _ (by decide)⟩ (ix2 r 0) = BitVec.ofNat 32 g.val then (1 : EReal) else 0)
    * xB ⟨t % 10, Nat.mod_lt _ (by decide)⟩ (ix2 r h)

theorem accB_apply (g : Fin 256) (h : Fin 64) (n : ℕ) :
    accB xB bB n (ix2 g h) = ∑ t ∈ Finset.range (n + 1), blockTerm xB bB g h t := by
  induction n with
  | zero =>
    rw [accB_zero, pay2_apply, pay1_apply, zero_add, Finset.sum_range_one]
    rfl
  | succ n ih =>
    rw [Finset.sum_range_succ, ← ih]
    exact pay2_apply _ _ _ g h

variable (hx : ∀ (t : Fin 10) (r : Fin 5000) (j : Fin 64), xB t (ix2 r j) = X (ix2 ⟨5000 * t.val + r.val, by omega⟩ j))
  (hb : ∀ (t : Fin 10) (r : Fin 5000), bB t (ix2 r 0) = B (ix2 ⟨5000 * t.val + r.val, by omega⟩ 0))

include hx hb in

theorem acc_last : accB xB bB 9 = Cert.Spec.segsum X B := by
  funext j
  obtain ⟨g, h, rfl⟩ : ∃ (g : Fin 256) (h : Fin 64), j = ix2 g h := ⟨j 0, j 1, eq_ix2 j⟩
  rw [accB_apply, Finset.sum_range (fun t => blockTerm xB bB g h t)]
  unfold Cert.Spec.segsum
  rw [Cert.LibScatter.scatterAdd_rows_apply _ rfl rfl rfl rfl]
  have z : broadcastInDim Cert.ReferenceIdeal.S256x64 ![] Cert.ReferenceIdeal.Gen.bcast_S_S256x64 (constant (F := Ideal) Cert.ReferenceIdeal.S_ .f32 0x00000000#32) (ix2 g h) = 0 :=
    Ideal.ofBits_zero_f32
  rw [z, zero_add, Finset.sum_filter, sum_blocks]
  refine Finset.sum_congr rfl fun t _ => ?_
  have et : (⟨t.val % 10, Nat.mod_lt _ (by decide)⟩ : Fin 10) = t := Fin.ext (by show t.val % 10 = t.val; have := t.isLt; omega)
  unfold blockTerm
  rw [et]
  refine Finset.sum_congr rfl fun r _ => ?_
  rw [hx t r h, hb t r, ite_mul, one_mul, zero_mul]
  exact if_congr (word_eq_iff _ g.val g.isLt) rfl rfl

include hx hb in

theorem pool_last (W : FVec Ideal S64x1 .f32) (b11 : FVec Ideal S1x1 .f32) :
    k5_pay3 W (accB xB bB 9) b11 = Cert.Spec.pool X B W b11 := by
  rw [acc_last X B xB bB hx hb]
  funext j
  obtain ⟨g, q, rfl⟩ : ∃ (g : Fin 256) (q : Fin 1), j = ix2 g q := ⟨j 0, j 1, eq_ix2 j⟩
  unfold k5_pay3 Cert.Spec.pool
  simp only [shapeCast_self]
  rw [addf_apply, addf_apply, Cert.LibRowOps.matmul_plain_apply dot_S256x64_S64x1_S256x1_1_0_0_1_n_n rfl,
    Cert.LibRowOps.dotGeneral_plain_apply Cert.ReferenceIdeal.dot_S256x64_S64x1_S256x1_1_0_0_1_n_n rfl,
    broadcastTo_1b_ab_apply]
  have eb : broadcastInDim Cert.ReferenceIdeal.S256x1 ![0, 1] Cert.ReferenceIdeal.Gen.bcast_S1x1_S256x1_0_1 b11 (ix2 g q) = b11 (ix2 (0 : Fin 1) q) :=
    broadcastInDim_apply _ _ b11 (ix2 g q) (ix2 (0 : Fin 1) q) fun a => by
      match a with
      | ⟨0, _⟩ => rfl
      | ⟨1, _⟩ =>
        show q.val = if (1 : ℕ) = 1 then 0 else q.val
        rw [if_pos rfl]; have := q.isLt; omega
  rw [eb]
  rfl

end Last

end Cert.PoolMath

end
-- ==== Proof.KI.Reg5.lean ====
import proofs.«426835_j41618233099040_1_alg».proof.Proof.Gen.KernelIdeal.Launch
import proofs.«426835_j41618233099040_1_alg».proof.Proof.Gen.KernelIdeal.Skeleton
import proofs.«426835_j41618233099040_1_alg».proof.Proof.Gen.KernelIdeal.Points
import proofs.«426835_j41618233099040_1_alg».proof.Proof.Spec
import proofs.«426835_j41618233099040_1_alg».proof.Proof.PoolMath
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val % 10 = 0 :=
  (by decide +kernel : ∀ t : Fin grid5.N, cond5_0 (grid5.coords t) ↔ t.val % 10 = 0)

abbrev cond5_1 (i : grid5.Coords) : Prop := k5_cond2 i = 1#1
theorem hcond5_1 : ∀ t : Fin cfg5.N, cond5_1 (grid5.coords t) ↔ t.val % 10 = 9 :=
  (by decide +kernel : ∀ t : Fin grid5.N, cond5_1 (grid5.coords t) ↔ t.val % 10 = 9)

theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel

theorem liveAt5_4 : ∀ t : Fin cfg5.N, cond5_1 (grid5.coords t) → cfg5.idle 4 (grid5.coords t) = false := by decide +kernel

abbrev scM5 : Memref sig .tc .vmem S256x64 .f32 := Memref.whole cc5_scratch0

theorem PhiA5_eq (c : Dev nD) :
    (Pipeline.ΦA spec5 c : sProp 𝕄)
      = iprop(iprop(iprop((∃ d, owns (c : Thread nD τ) scM5 fullShare d)) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

theorem hz2 : (![0, 0] : Fin 2 → Nat) = fun _ => 0 := funext fun a => by fin_cases a <;> rfl

theorem cover_head5 {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set := by
  subst h
  exact ⟨_, List.mem_cons_self .., by show y ∈ (Rect.whole S).set; rw [Rect.set_whole]; exact Finset.mem_univ y⟩

set_option maxHeartbeats 1000000 in
theorem sound_kernel5_A (c : Dev nD) (E : Set ℕ) (i : grid5.Coords)
    (arg1 : Memref sig .tc .vmem S5000x64 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S256x1 .f32) (harg5 : arg5.IsWhole) (arg6 : Memref sig .tc .vmem S256x64 .f32) (harg6 : arg6.IsWhole)
    (hc0 : cond5_0 i) (hc1 : ¬cond5_1 i)
    (x0 : Vec F S5000x64 .f32) (x1 : Vec F S5000x1 .i32) (x2 : Vec F S64x1 .f32) (x3 : Vec F S1x1 .f32) (xi4 : Vec F S256x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
            ∗ owns (c : Thread nD τ) arg6 fullShare (k5_pay2 x1 x0 k5_pay1)) -∗ K ⟨⟩))
      ⊢ wp frame (wpE (defs₀ (F := F)) Variants.none c none) E (cc5__pool_kernel i arg1 harg1 arg2 harg2 arg3 harg3 arg4 harg4 arg5 harg5 arg6 harg6) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_run_names
  rw [View.read_writes_eq_canon _ _ _ (cover_head5 hz2 _ _ _), View.canon_cons_unit_zero hz2, View.readCov_unit_zero (S := S256x64) _ hz2]
  simp only [View.readAt_eq_ld, View.ld_unit_zero (S := S5000x1) hz2, View.ld_unit_zero (S := S5000x64) hz2, View.ld_unit_zero (S := S256x64) hz2, View.ld_unit_zero (S := S64x1) hz2, View.ld_unit_zero (S := S1x1) hz2]

set_option maxHeartbeats 1000000 in
theorem sound_kernel5_B (c : Dev nD) (E : Set ℕ) (i : grid5.Coords)
    (arg1 : Memref sig .tc .vmem S5000x64 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S256x1 .f32) (harg5 : arg5.IsWhole) (arg6 : Memref sig .tc .vmem S256x64 .f32) (harg6 : arg6.IsWhole)
    (hc0 : ¬cond5_0 i) (hc1 : ¬cond5_1 i)
    (x0 : Vec F S5000x64 .f32) (x1 : Vec F S5000x1 .i32) (x2 : Vec F S64x1 .f32) (x3 : Vec F S1x1 .f32) (xi4 : Vec F S256x1 .f32) (xs : Vec F S256x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4 ∗ owns (c : Thread nD τ) arg6 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
            ∗ owns (c : Thread nD τ) arg6 fullShare (k5_pay2 x1 x0 xs)) -∗ K ⟨⟩))
      ⊢ wp frame (wpE (defs₀ (F := F)) Variants.none c none) E (cc5__pool_kernel i arg1 harg1 arg2 harg2 arg3 harg3 arg4 harg4 arg5 harg5 arg6 harg6) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_run_names
  rw [View.read_writes_eq_canon _ _ _ (cover_head5 hz2 _ _ _), View.canon_unit_zero hz2]
  simp only [View.readAt_eq_ld, View.ld_unit_zero (S := S5000x1) hz2, View.ld_unit_zero (S := S5000x64) hz2, View.ld_unit_zero (S := S256x64) hz2, View.ld_unit_zero (S := S64x1) hz2, View.ld_unit_zero (S := S1x1) hz2]

set_option maxHeartbeats 1000000 in
theorem sound_kernel5_C (c : Dev nD) (E : Set ℕ) (i : grid5.Coords)
    (arg1 : Memref sig .tc .vmem S5000x64 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S256x1 .f32) (harg5 : arg5.IsWhole) (arg6 : Memref sig .tc .vmem S256x64 .f32) (harg6 : arg6.IsWhole)
    (hc0 : ¬cond5_0 i) (hc1 : cond5_1 i)
    (x0 : Vec F S5000x64 .f32) (x1 : Vec F S5000x1 .i32) (x2 : Vec F S64x1 .f32) (x3 : Vec F S1x1 .f32) (xs : Vec F S256x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k5_pay3 x2 (k5_pay2 x1 x0 xs) x3)
            ∗ owns (c : Thread nD τ) arg6 fullShare (k5_pay2 x1 x0 xs)) -∗ K ⟨⟩))
      ⊢ wp frame (wpE (defs₀ (F := F)) Variants.none c none) E (cc5__pool_kernel i arg1 harg1 arg2 harg2 arg3 harg3 arg4 harg4 arg5 harg5 arg6 harg6) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (cover_head5 hz2 _ _ _), View.canon_unit_zero hz2, View.readCov_unit_zero (S := S256x64) _ hz2]
    simp only [View.readAt_eq_ld, View.ld_unit_zero (S := S5000x1) hz2, View.ld_unit_zero (S := S5000x64) hz2, View.ld_unit_zero (S := S256x64) hz2, View.ld_unit_zero (S := S64x1) hz2, View.ld_unit_zero (S := S1x1) hz2]
  iexists _; isplitr
  swap; · iexact HS
  ipureintro
  sl_unfold_run_names
  rw [View.read_writes_eq_canon _ _ _ (cover_head5 hz2 _ _ _), View.canon_unit_zero hz2]
  simp only [View.readAt_eq_ld, View.ld_unit_zero (S := S5000x1) hz2, View.ld_unit_zero (S := S5000x64) hz2, View.ld_unit_zero (S := S256x64) hz2, View.ld_unit_zero (S := S64x1) hz2, View.ld_unit_zero (S := S1x1) hz2]

def acc5 (c : Dev nD) : (n : ℕ) → n < cfg5.N → Vec F S256x64 .f32
  | 0, hn => k5_pay2 (iblk5 V c 1 ⟨0, hn⟩) (iblk5 V c 0 ⟨0, hn⟩) k5_pay1
  | n + 1, hn => k5_pay2 (iblk5 V c 1 ⟨n + 1, hn⟩) (iblk5 V c 0 ⟨n + 1, hn⟩) (acc5 c n (Nat.lt_of_succ_lt hn))

theorem acc5_first (c : Dev nD) (t : Fin cfg5.N) (h : t.val = 0) :
    acc5 V c t.val t.isLt = k5_pay2 (iblk5 V c 1 t) (iblk5 V c 0 t) k5_pay1 := by
  obtain ⟨n, hn⟩ := t
  cases n with
  | zero => rfl
  | succ n => exact absurd h (Nat.succ_ne_zero _)

theorem acc5_later (c : Dev nD) (t : Fin cfg5.N) (h : t.val ≠ 0) :
    acc5 V c t.val t.isLt = k5_pay2 (iblk5 V c 1 t) (iblk5 V c 0 t) (acc5 V c (t.val - 1) (Nat.lt_of_le_of_lt (Nat.sub_le _ _) t.isLt)) := by
  obtain ⟨n, hn⟩ := t
  cases n with
  | zero => exact absurd rfl h
  | succ n => rfl

def PhiS5 (c : Dev nD) : (n : ℕ) → n ≤ cfg5.N → sProp 𝕄
  | 0, _ => Pipeline.ΦA spec5 c
  | n + 1, hn => iprop(iprop(owns (c : Thread nD τ) scM5 fullShare (acc5 V c n hn) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare (acc5 V c n hn) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5 fullShare (acc5 V c (n - 1) (by omega)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => k5_pay3 (iblk5 V c 2 t) (acc5 V c t.val t.isLt) (iblk5 V c 3 t)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = k5_pay3 (iblk5 V c 2 t) (acc5 V c t.val t.isLt) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  have hN : t.val < 10 := lt_of_lt_of_eq t.isLt (show cfg5.N = 10 from N_5)
  rw [show (dat5 V c).leavesExact 0 t = owns (c : Thread nD τ) (st5_0 t) fullShare ((dat5 V c).after 0 t) from rfl, after5_0]
  rw [show (dat5 V c).leavesExact 1 t = owns (c : Thread nD τ) (st5_1 t) fullShare ((dat5 V c).after 1 t) from rfl, after5_1]
  rw [show (dat5 V c).leavesExact 2 t = owns (c : Thread nD τ) (st5_2 t) fullShare ((dat5 V c).after 2 t) from rfl, after5_2]
  rw [show (dat5 V c).leavesExact 3 t = owns (c : Thread nD τ) (st5_3 t) fullShare ((dat5 V c).after 3 t) from rfl, after5_3]
  by_cases h9 : t.val % 10 = 9
  · have hz : t.val ≠ 0 := by omega
    have h0 : ¬t.val % 10 = 0 := by omega
    rw [show (dat5 V c).leavesExact 4 t = owns (c : Thread nD τ) (st5_4 t) fullShare ((dat5 V c).after 4 t) from by
      unfold Dat.leavesExact; rw [liveAt5_4 t ((hcond5_1 t).mpr h9)], after5_4]
    rw [acc5_later V c t hz, PhiS5_castSucc V c t, PhiS5_pos V c _ _ hz]
    iintro ⟨⟨⟨HS, HR⟩, Hg⟩, Ho, ⟨%d0, H0⟩, ⟨%d1, H1⟩, ⟨%d2, H2⟩, ⟨%d3, H3⟩, ⟨%d4, H4⟩⟩
    iapply (sound_kernel5_C c Set.univ (grid5.coords t) _ _ _ _ _ _ _ _ _ _ _ _ (fun h => h0 ((hcond5_0 t).mp h)) ((hcond5_1 t).mpr h9) (iblk5 V c 0 t) (iblk5 V c 1 t) (iblk5 V c 2 t) (iblk5 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [Dat.leavesExact_idle (dat5 V c) 4 t (idleAt5_4 t (fun h => h9 ((hcond5_1 t).mp h))) (noFlush5_4 t (fun h => h9 ((hcond5_1 t).mp h)))]
    by_cases h0 : t.val % 10 = 0
    · have hz : t.val = 0 := by omega
      rw [acc5_first V c t hz, PhiS5_castSucc V c t, PhiS5_zero V c _ _ hz, PhiA5_eq]
      iintro ⟨⟨⟨HS, HR⟩, Hg⟩, Ho, ⟨%d0, H0⟩, ⟨%d1, H1⟩, ⟨%d2, H2⟩, ⟨%d3, H3⟩, ⟨%d4, H4⟩⟩
      iapply (sound_kernel5_A c Set.univ (grid5.coords t) _ _ _ _ _ _ _ _ _ _ _ _ ((hcond5_0 t).mpr h0) (fun h => h9 ((hcond5_1 t).mp h)) (iblk5 V c 0 t) (iblk5 V c 1 t) (iblk5 V c 2 t) (iblk5 V c 3 t) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · have hz : t.val ≠ 0 := fun e => h0 (by rw [e])
      rw [acc5_later V c t hz, PhiS5_castSucc V c t, PhiS5_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel5_B c Set.univ (grid5.coords t) _ _ _ _ _ _ _ _ _ _ _ _ (fun h => h0 ((hcond5_0 t).mp h)) (fun h => h9 ((hcond5_1 t).mp h)) (iblk5 V c 0 t) (iblk5 V c 1 t) (iblk5 V c 2 t) (iblk5 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS, HR⟩, Hg⟩
  isplitl [HS HR]
  · isplitl [HS]
    · iexists _; iexact HS
    iexact HR
  iexact Hg

theorem hout5 (c : Dev nD) : (dat5 V c).Φ (Fin.last cfg5.N) ⊢ Pipeline.ΦA spec5 c :=
  Phi_out5 V c _ (by rw [Fin.val_last]; have : cfg5.N = 10 := N_5; omega)

end Region5

section Value

open Idealize.ShloMosaic.ValueIdx

variable (V : (c : Dev nD) → (b : Ref sig .tc) → Buf (Elt Ideal) ((c : Thread nD τ).loc b))

abbrev xarr5 (c : Dev nD) : FVec Ideal S50000x64 .f32 := V c main_v88
abbrev barr5 (c : Dev nD) : IVec S50000x1 32 := V c main_v89
abbrev xblk5 (c : Dev nD) (t : Fin 10) : FVec Ideal S5000x64 .f32 := iblk5 V c 0 (Fin.cast N_5.symm t)
abbrev bblk5 (c : Dev nD) (t : Fin 10) : IVec S5000x1 32 := iblk5 V c 1 (Fin.cast N_5.symm t)

theorem index5 : ∀ t : Fin cfg5.N, win5_0.index t 0 = t.val ∧ win5_0.index t 1 = 0 ∧ win5_1.index t 0 = t.val ∧ win5_1.index t 1 = 0 :=
  (by decide +kernel : ∀ t : Fin grid5.N, win5_0.index t 0 = t.val ∧ win5_0.index t 1 = 0 ∧ win5_1.index t 0 = t.val ∧ win5_1.index t 1 = 0)
theorem index5_whole : ∀ t : Fin cfg5.N, (∀ a, win5_2.index t a = 0) ∧ (∀ a, win5_3.index t a = 0) ∧ (∀ a, win5_4.index t a = 0) :=
  (by decide +kernel : ∀ t : Fin grid5.N, (∀ a, win5_2.index t a = 0) ∧ (∀ a, win5_3.index t a = 0) ∧ (∀ a, win5_4.index t a = 0))

theorem xblk5_apply (c : Dev nD) (t : Fin 10) (r : Fin 5000) (j : Fin 64) :
    xblk5 V c t (ix2 r j) = xarr5 V c (ix2 ⟨5000 * t.val + r.val, by omega⟩ j) := by
  unfold xblk5 xarr5 iblk5
  rw [View.read_apply]
  show V c main_v88 _ = V c main_v88 _
  congr 1
  funext a
  apply Fin.ext
  match a with
  | ⟨0, _⟩ =>
    show win5_0.index (Fin.cast N_5.symm t) 0 * 5000 + 1 * r.val = 5000 * t.val + r.val
    rw [(index5 _).1]; show t.val * 5000 + 1 * r.val = _; omega
  | ⟨1, _⟩ =>
    show win5_0.index (Fin.cast N_5.symm t) 1 * 64 + 1 * j.val = j.val
    rw [(index5 _).2.1]; omega

theorem bblk5_apply (c : Dev nD) (t : Fin 10) (r : Fin 5000) :
    bblk5 V c t (ix2 r 0) = barr5 V c (ix2 ⟨5000 * t.val + r.val, by omega⟩ 0) := by
  unfold bblk5 barr5 iblk5
  rw [View.read_apply]
  show V c main_v89 _ = V c main_v89 _
  congr 1
  funext a
  apply Fin.ext
  match a with
  | ⟨0, _⟩ =>
    show win5_1.index (Fin.cast N_5.symm t) 0 * 5000 + 1 * r.val = 5000 * t.val + r.val
    rw [(index5 _).2.2.1]; show t.val * 5000 + 1 * r.val = _; omega
  | ⟨1, _⟩ =>
    show win5_1.index (Fin.cast N_5.symm t) 1 * 1 + 1 * 0 = 0
    rw [(index5 _).2.2.2]

theorem wblk5_eq (c : Dev nD) (t : Fin cfg5.N) : iblk5 V c 2 t = V c main_arg8 := by
  have hz' : (fun a => win5_2.index t a * main_arg8.ty.shape.size a) = fun _ => 0 := funext fun a => by rw [(index5_whole t).1 a, Nat.zero_mul]
  exact Memref.read_access_unit_zero (Elt Ideal) main_arg8 hz' (fun a => by rw [congrFun hz' a]; simp) (V c main_arg8)

theorem cblk5_eq (c : Dev nD) (t : Fin cfg5.N) : iblk5 V c 3 t = V c main_v90 := by
  have hz' : (fun a => win5_3.index t a * main_v90.ty.shape.size a) = fun _ => 0 := funext fun a => by rw [(index5_whole t).2.1 a, Nat.zero_mul]
  exact Memref.read_access_unit_zero (Elt Ideal) main_v90 hz' (fun a => by rw [congrFun hz' a]; simp) (V c main_v90)

theorem acc5_eq_accB (c : Dev nD) : ∀ (n : ℕ) (hn : n < cfg5.N), acc5 V c n hn = Cert.PoolMath.accB (xblk5 V c) (bblk5 V c) n
  | 0, hn => by rw [Cert.PoolMath.accB_zero]; rfl
  | n + 1, hn => by
    have h10 : n + 1 < 10 := lt_of_lt_of_eq hn N_5
    refine Eq.trans ?_ (Cert.PoolMath.accB_succ (xblk5 V c) (bblk5 V c) ⟨n + 1, h10⟩ n rfl).symm
    rw [← acc5_eq_accB c n (Nat.lt_of_succ_lt hn)]
    rfl

theorem flushed5_eq (c : Dev nD) (t : Fin cfg5.N) (hf : (cfg5.win 4).flush t = true) :
    (dat5 V c).flushed 4 t = ((cfg5.win 4).blk t).view.read (Elt Ideal) (Cert.Spec.pool (xarr5 V c) (barr5 V c) (V c main_arg8) (V c main_v90)) := by
  have hN : cfg5.N = 10 := N_5
  have h9 : t.val = 9 := by have := (flush5_4 t).mp hf; have := t.isLt; omega
  obtain rfl : t = t5_9 := Fin.ext h9
  show (cfg5.win 4).cut (grid5.coords t5_9) ((dat5 V c).after 4 t5_9) = _
  rw [after5_4, wblk5_eq, cblk5_eq]
  rw [show acc5 V c t5_9.val t5_9.isLt = Cert.PoolMath.accB (xblk5 V c) (bblk5 V c) 9 from acc5_eq_accB V c 9 _]
  rw [Cert.PoolMath.pool_last (xarr5 V c) (barr5 V c) (xblk5 V c) (bblk5 V c) (xblk5_apply V c) (bblk5_apply V c)]
  have hz' : (fun a => win5_4.index t5_9 a * main_v91.ty.shape.size a) = fun _ => 0 := funext fun a => by rw [(index5_whole t5_9).2.2 a, Nat.zero_mul]
  exact (Memref.read_access_unit_zero (Elt Ideal) main_v91 hz' (fun a => by rw [congrFun hz' a]; simp) _).symm

theorem final5 (c : Dev nD) :
    (dat5 (F := Ideal) V c).arrAt 4 cfg5.N = Cert.Spec.pool (F := Ideal) (V c main_v88) (V c main_v89) (V c main_arg8) (V c main_v90) :=
  (dat5 V c).arrAt_eq_of_cover 4 (Cert.Spec.pool (xarr5 V c) (barr5 V c) (V c main_arg8) (V c main_v90)) (flushed5_eq V c) fun i =>
    ⟨t5_9, (flush5_4 t5_9).mpr rfl, by
      show i ∈ ((View.whole main_v91).slice (win5_4.rect t5_9)).set
      rw [View.set_slice_whole, Rect.mem_set_unit]
      intro a
      have h0 : (i 0 : Nat) < 256 := (i 0).isLt
      have h1 : (i 1 : Nat) < 1 := (i 1).isLt
      match a with
      | ⟨0, _⟩ =>
        show win5_4.index t5_9 0 * win5_4.size 0 ≤ (i 0 : Nat) ∧ (i 0 : Nat) < win5_4.index t5_9 0 * win5_4.size 0 + win5_4.xsize (grid5.coords t5_9) 0
        rw [show win5_4.index t5_9 0 * win5_4.size 0 = 0 from by decide +kernel, show win5_4.xsize (grid5.coords t5_9) 0 = 256 from by decide +kernel]; omega
      | ⟨1, _⟩ =>
        show win5_4.index t5_9 1 * win5_4.size 1 ≤ (i 1 : Nat) ∧ (i 1 : Nat) < win5_4.index t5_9 1 * win5_4.size 1 + win5_4.xsize (grid5.coords t5_9) 1
        rw [show win5_4.index t5_9 1 * win5_4.size 1 = 0 from by decide +kernel, show win5_4.xsize (grid5.coords t5_9) 1 = 1 from by decide +kernel]; omega⟩

end Value

end Cert.KernelIdeal.Frame

end
-- ==== Proof.KI.Main.lean ====
import proofs.«426835_j41618233099040_1_alg».proof.Proof.KI.Reg0
import proofs.«426835_j41618233099040_1_alg».proof.Proof.KI.Reg1
import proofs.«426835_j41618233099040_1_alg».proof.Proof.KI.Reg2
import proofs.«426835_j41618233099040_1_alg».proof.Proof.KI.Reg3
import proofs.«426835_j41618233099040_1_alg».proof.Proof.KI.Reg4
import proofs.«426835_j41618233099040_1_alg».proof.Proof.KI.Reg5
import proofs.«426835_j41618233099040_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev U1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

theorem W1_of (c : Dev nD) (r : Ref sig .tc) (h : r ∉ hostOps0_W) : W1 m c (Proc.devRef .tc r) = W0 m c (Proc.devRef .tc r) :=
  StableHlo.after_of_writes_sub hostOps0 _ hostOps0_writes h

theorem W2_keep (c : Dev nD) (b : Ref sig .tc) (hb : b ≠ main_v1) : W2 m c (Proc.devRef .tc b) = W1 m c (Proc.devRef .tc b) := by
  by_cases h : ∃ w, Pipeline.arrRef spec0 w = b
  · obtain ⟨w, rfl⟩ := h
    rw [W2_arr]
    match w, hb with
    | ⟨0, _⟩, _ => exact ((dat0 (U1 m) c).arrAt_in 0 rfl _).trans (A_eq0 (U1 m) c 0)
    | ⟨1, _⟩, _ => exact ((dat0 (U1 m) c).arrAt_in 1 rfl _).trans (A_eq0 (U1 m) c 1)
    | ⟨2, _⟩, _ => exact ((dat0 (U1 m) c).arrAt_in 2 rfl _).trans (A_eq0 (U1 m) c 2)
    | ⟨3, _⟩, hb => exact absurd rfl hb
    | ⟨n + 4, h⟩, _ => exact absurd h (Nat.not_lt.2 (Nat.le_add_left _ _))
  · exact W2_of_ne m c b (fun w e => h ⟨w, e⟩)

theorem W2_out (c : Dev nD) : W2 m c (Proc.devRef .tc main_v1) = (dat0 (U1 m) c).arrAt 3 cfg0.N :=
  W2_arr m c 3

abbrev W3 : Dev nD → Valuation τ sig (Elt F) := fun c => StableHlo.after hostOps1 (W2 m c)

abbrev U3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

theorem W3_of (c : Dev nD) (r : Ref sig .tc) (h : r ∉ hostOps1_W) : W3 m c (Proc.devRef .tc r) = W2 m c (Proc.devRef .tc r) :=
  StableHlo.after_of_writes_sub hostOps1 _ hostOps1_writes h

theorem W4_keep (c : Dev nD) (b : Ref sig .tc) (hb : b ≠ main_v43) : W4 m c (Proc.devRef .tc b) = W3 m c (Proc.devRef .tc b) := by
  by_cases h : ∃ w, Pipeline.arrRef spec1 w = b
  · obtain ⟨w, rfl⟩ := h
    rw [W4_arr]
    match w, hb with
    | ⟨0, _⟩, _ => exact ((dat1 (U3 m) c).arrAt_in 0 rfl _).trans (A_eq1 (U3 m) c 0)
    | ⟨1, _⟩, _ => exact ((dat1 (U3 m) c).arrAt_in 1 rfl _).trans (A_eq1 (U3 m) c 1)
    | ⟨2, _⟩, _ => exact ((dat1 (U3 m) c).arrAt_in 2 rfl _).trans (A_eq1 (U3 m) c 2)
    | ⟨3, _⟩, _ => exact ((dat1 (U3 m) c).arrAt_in 3 rfl _).trans (A_eq1 (U3 m) c 3)
    | ⟨4, _⟩, hb => exact absurd rfl hb
    | ⟨n + 5, h⟩, _ => exact absurd h (Nat.not_lt.2 (Nat.le_add_left _ _))
  · exact W4_of_ne m c b (fun w e => h ⟨w, e⟩)

theorem W4_out (c : Dev nD) : W4 m c (Proc.devRef .tc main_v43) = (dat1 (U3 m) c).arrAt 4 cfg1.N :=
  W4_arr m c 4

abbrev W5 : Dev nD → Valuation τ sig (Elt F) := fun c => StableHlo.after hostOps2 (W4 m c)

abbrev U5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

theorem W5_of (c : Dev nD) (r : Ref sig .tc) (h : r ∉ hostOps2_W) : W5 m c (Proc.devRef .tc r) = W4 m c (Proc.devRef .tc r) :=
  StableHlo.after_of_writes_sub hostOps2 _ hostOps2_writes h

theorem W6_keep (c : Dev nD) (b : Ref sig .tc) (hb : b ≠ main_v58) : W6 m c (Proc.devRef .tc b) = W5 m c (Proc.devRef .tc b) := by
  by_cases h : ∃ w, Pipeline.arrRef spec2 w = b
  · obtain ⟨w, rfl⟩ := h
    rw [W6_arr]
    match w, hb with
    | ⟨0, _⟩, _ => exact ((dat2 (U5 m) c).arrAt_in 0 rfl _).trans (A_eq2 (U5 m) c 0)
    | ⟨1, _⟩, _ => exact ((dat2 (U5 m) c).arrAt_in 1 rfl _).trans (A_eq2 (U5 m) c 1)
    | ⟨2, _⟩, _ => exact ((dat2 (U5 m) c).arrAt_in 2 rfl _).trans (A_eq2 (U5 m) c 2)
    | ⟨3, _⟩, _ => exact ((dat2 (U5 m) c).arrAt_in 3 rfl _).trans (A_eq2 (U5 m) c 3)
    | ⟨4, _⟩, hb => exact absurd rfl hb
    | ⟨n + 5, h⟩, _ => exact absurd h (Nat.not_lt.2 (Nat.le_add_left _ _))
  · exact W6_of_ne m c b (fun w e => h ⟨w, e⟩)

theorem W6_out (c : Dev nD) : W6 m c (Proc.devRef .tc main_v58) = (dat2 (U5 m) c).arrAt 4 cfg2.N :=
  W6_arr m c 4

abbrev W7 : Dev nD → Valuation τ sig (Elt F) := fun c => StableHlo.after hostOps3 (W6 m c)

abbrev U7 : (c : Dev nD) → (b : Ref sig .tc) → Buf (Elt F) ((c : Thread nD τ).loc b) := fun c b => W7 m c b

def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)

theorem W7_of (c : Dev nD) (r : Ref sig .tc) (h : r ∉ hostOps3_W) : W7 m c (Proc.devRef .tc r) = W6 m c (Proc.devRef .tc r) :=
  StableHlo.after_of_writes_sub hostOps3 _ hostOps3_writes h

theorem W8_keep (c : Dev nD) (b : Ref sig .tc) (hb : b ≠ main_v73) : W8 m c (Proc.devRef .tc b) = W7 m c (Proc.devRef .tc b) := by
  by_cases h : ∃ w, Pipeline.arrRef spec3 w = b
  · obtain ⟨w, rfl⟩ := h
    rw [W8_arr]
    match w, hb with
    | ⟨0, _⟩, _ => exact ((dat3 (U7 m) c).arrAt_in 0 rfl _).trans (A_eq3 (U7 m) c 0)
    | ⟨1, _⟩, _ => exact ((dat3 (U7 m) c).arrAt_in 1 rfl _).trans (A_eq3 (U7 m) c 1)
    | ⟨2, _⟩, _ => exact ((dat3 (U7 m) c).arrAt_in 2 rfl _).trans (A_eq3 (U7 m) c 2)
    | ⟨3, _⟩, _ => exact ((dat3 (U7 m) c).arrAt_in 3 rfl _).trans (A_eq3 (U7 m) c 3)
    | ⟨4, _⟩, hb => exact absurd rfl hb
    | ⟨n + 5, h⟩, _ => exact absurd h (Nat.not_lt.2 (Nat.le_add_left _ _))
  · exact W8_of_ne m c b (fun w e => h ⟨w, e⟩)

theorem W8_out (c : Dev nD) : W8 m c (Proc.devRef .tc main_v73) = (dat3 (U7 m) c).arrAt 4 cfg3.N :=
  W8_arr m c 4

abbrev W9 : Dev nD → Valuation τ sig (Elt F) := fun c => StableHlo.after hostOps4 (W8 m c)

abbrev U9 : (c : Dev nD) → (b : Ref sig .tc) → Buf (Elt F) ((c : Thread nD τ).loc b) := fun c b => W9 m c b

def W10 (c : Dev nD) : Valuation τ sig (Elt F) :=
  Pipeline.withArrays spec4 c (W9 m c) fun w => (dat4 (U9 m) c).arrAt w cfg4.N
theorem W10_arr (c : Dev nD) (w : Fin cfg4.W) :
    W10 m c (Proc.devRef .tc (Pipeline.arrRef spec4 w)) = (dat4 (U9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev U10 : (c : Dev nD) → (b : Ref sig .tc) → Buf (Elt F) ((c : Thread nD τ).loc b) := fun c b => W10 m c b
theorem hF4 (c : Dev nD) (w : Fin cfg4.W) : (dat4 (U9 m) c).arrAt w cfg4.N = U10 m c (Pipeline.arrRef spec4 w) :=
  (W10_arr m c w).symm
theorem hrest4 (c : Dev nD) : ∀ b, b ∉ Finset.univ.image (Pipeline.arrRef spec4) → U10 m c b = U9 m c b :=
  fun b hb => W10_of_ne m c b fun w e => hb (Finset.mem_image.mpr ⟨w, Finset.mem_univ _, e⟩)

theorem W9_of (c : Dev nD) (r : Ref sig .tc) (h : r ∉ hostOps4_W) : W9 m c (Proc.devRef .tc r) = W8 m c (Proc.devRef .tc r) :=
  StableHlo.after_of_writes_sub hostOps4 _ hostOps4_writes h

theorem W10_keep (c : Dev nD) (b : Ref sig .tc) (hb : b ≠ main_v88) : W10 m c (Proc.devRef .tc b) = W9 m c (Proc.devRef .tc b) := by
  by_cases h : ∃ w, Pipeline.arrRef spec4 w = b
  · obtain ⟨w, rfl⟩ := h
    rw [W10_arr]
    match w, hb with
    | ⟨0, _⟩, _ => exact ((dat4 (U9 m) c).arrAt_in 0 rfl _).trans (A_eq4 (U9 m) c 0)
    | ⟨1, _⟩, _ => exact ((dat4 (U9 m) c).arrAt_in 1 rfl _).trans (A_eq4 (U9 m) c 1)
    | ⟨2, _⟩, _ => exact ((dat4 (U9 m) c).arrAt_in 2 rfl _).trans (A_eq4 (U9 m) c 2)
    | ⟨3, _⟩, hb => exact absurd rfl hb
    | ⟨n + 4, h⟩, _ => exact absurd h (Nat.not_lt.2 (Nat.le_add_left _ _))
  · exact W10_of_ne m c b (fun w e => h ⟨w, e⟩)

theorem W10_out (c : Dev nD) : W10 m c (Proc.devRef .tc main_v88) = (dat4 (U9 m) c).arrAt 3 cfg4.N :=
  W10_arr m c 3

abbrev W11 : Dev nD → Valuation τ sig (Elt F) := fun c => StableHlo.after hostOps5 (W10 m c)

abbrev U11 : (c : Dev nD) → (b : Ref sig .tc) → Buf (Elt F) ((c : Thread nD τ).loc b) := fun c b => W11 m c b

def W12 (c : Dev nD) : Valuation τ sig (Elt F) :=
  Pipeline.withArrays spec5 c (W11 m c) fun w => (dat5 (U11 m) c).arrAt w cfg5.N
theorem W12_arr (c : Dev nD) (w : Fin cfg5.W) :
    W12 m c (Proc.devRef .tc (Pipeline.arrRef spec5 w)) = (dat5 (U11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev U12 : (c : Dev nD) → (b : Ref sig .tc) → Buf (Elt F) ((c : Thread nD τ).loc b) := fun c b => W12 m c b
theorem hF5 (c : Dev nD) (w : Fin cfg5.W) : (dat5 (U11 m) c).arrAt w cfg5.N = U12 m c (Pipeline.arrRef spec5 w) :=
  (W12_arr m c w).symm
theorem hrest5 (c : Dev nD) : ∀ b, b ∉ Finset.univ.image (Pipeline.arrRef spec5) → U12 m c b = U11 m c b :=
  fun b hb => W12_of_ne m c b fun w e => hb (Finset.mem_image.mpr ⟨w, Finset.mem_univ _, e⟩)

theorem W11_of (c : Dev nD) (r : Ref sig .tc) (h : r ∉ hostOps5_W) : W11 m c (Proc.devRef .tc r) = W10 m c (Proc.devRef .tc r) :=
  StableHlo.after_of_writes_sub hostOps5 _ hostOps5_writes h

theorem W12_keep (c : Dev nD) (b : Ref sig .tc) (hb : b ≠ main_v91) : W12 m c (Proc.devRef .tc b) = W11 m c (Proc.devRef .tc b) := by
  by_cases h : ∃ w, Pipeline.arrRef spec5 w = b
  · obtain ⟨w, rfl⟩ := h
    rw [W12_arr]
    match w, hb with
    | ⟨0, _⟩, _ => exact ((dat5 (U11 m) c).arrAt_in 0 rfl _).trans (A_eq5 (U11 m) c 0)
    | ⟨1, _⟩, _ => exact ((dat5 (U11 m) c).arrAt_in 1 rfl _).trans (A_eq5 (U11 m) c 1)
    | ⟨2, _⟩, _ => exact ((dat5 (U11 m) c).arrAt_in 2 rfl _).trans (A_eq5 (U11 m) c 2)
    | ⟨3, _⟩, _ => exact ((dat5 (U11 m) c).arrAt_in 3 rfl _).trans (A_eq5 (U11 m) c 3)
    | ⟨4, _⟩, hb => exact absurd rfl hb
    | ⟨n + 5, h⟩, _ => exact absurd h (Nat.not_lt.2 (Nat.le_add_left _ _))
  · exact W12_of_ne m c b (fun w e => h ⟨w, e⟩)

theorem W12_out (c : Dev nD) : W12 m c (Proc.devRef .tc main_v91) = (dat5 (U11 m) c).arrAt 4 cfg5.N :=
  W12_arr m c 4

-- A buffer that no host stretch writes and no region outputs ends as launched.
theorem W12_of (c : Dev nD) (b : Ref sig .tc) (h0 : b ∉ hostOps0_W) (r0 : b ≠ main_v1) (h1 : b ∉ hostOps1_W) (r1 : b ≠ main_v43) (h2 : b ∉ hostOps2_W) (r2 : b ≠ main_v58) (h3 : b ∉ hostOps3_W) (r3 : b ≠ main_v73) (h4 : b ∉ hostOps4_W) (r4 : b ≠ main_v88) (h5 : b ∉ hostOps5_W) (r5 : b ≠ main_v91) :
    W12 m c (Proc.devRef .tc b) = m ((c : Thread nD τ).loc b) :=
  (W12_keep m c b r5).trans <| (W11_of m c b h5).trans <| (W10_keep m c b r4).trans <| (W9_of m c b h4).trans <| (W8_keep m c b r3).trans <| (W7_of m c b h3).trans <| (W6_keep m c b r2).trans <| (W5_of m c b h2).trans <| (W4_keep m c b r1).trans <| (W3_of m c b h1).trans <| (W2_keep m c b r0).trans <| (W1_of m c b h0).trans <| rfl

abbrev argRefs : List (Ref sig .tc) :=
  [main_arg0, main_arg1, main_arg2, main_arg3, main_arg4, main_arg5, main_arg6, main_arg7, main_arg8, main_arg9, main_arg10, main_arg11]

theorem argRefs_unscoped : ∀ b ∈ (argRefs : List (Ref sig .tc)), ¬ (Proc.devRef .tc b : DevRef τ sig).isScoped := by decide

-- No item writes an argument.
theorem W12_arg (c : Dev nD) (b : Ref sig .tc) (hb : b ∈ argRefs) : W12 m c (Proc.devRef .tc b) = m ((c : Thread nD τ).loc b) := by
  have h : ∀ b ∈ (argRefs : List (Ref sig .tc)), b ∉ hostOps0_W ∧ b ≠ main_v1 ∧ b ∉ hostOps1_W ∧ b ≠ main_v43 ∧ b ∉ hostOps2_W ∧ b ≠ main_v58
      ∧ b ∉ hostOps3_W ∧ b ≠ main_v73 ∧ b ∉ hostOps4_W ∧ b ≠ main_v88 ∧ b ∉ hostOps5_W ∧ b ≠ main_v91 := by decide
  obtain ⟨h0, r0, h1, r1, h2, r2, h3, r3, h4, r4, h5, r5⟩ := h b hb
  exact W12_of m c b h0 r0 h1 r1 h2 r2 h3 r3 h4 r4 h5 r5

theorem W1_from0 (c : Dev nD) (b : Ref sig .tc) (h1 : b ∉ hostOps0_W) :
    W1 m c (Proc.devRef .tc b) = m ((c : Thread nD τ).loc b) :=
  (W1_of m c b h1).trans <| rfl
theorem W3_from0 (c : Dev nD) (b : Ref sig .tc) (h1 : b ∉ hostOps0_W) (h2 : b ≠ main_v1) (h3 : b ∉ hostOps1_W) :
    W3 m c (Proc.devRef .tc b) = m ((c : Thread nD τ).loc b) :=
  (W3_of m c b h3).trans <| (W2_keep m c b h2).trans <| (W1_of m c b h1).trans <| rfl
theorem W3_from2 (c : Dev nD) (b : Ref sig .tc) (h3 : b ∉ hostOps1_W) :
    W3 m c (Proc.devRef .tc b) = W2 m c (Proc.devRef .tc b) :=
  (W3_of m c b h3).trans <| rfl
theorem W4_from0 (c : Dev nD) (b : Ref sig .tc) (h1 : b ∉ hostOps0_W) (h2 : b ≠ main_v1) (h3 : b ∉ hostOps1_W) (h4 : b ≠ main_v43) :
    W4 m c (Proc.devRef .tc b) = m ((c : Thread nD τ).loc b) :=
  (W4_keep m c b h4).trans <| (W3_of m c b h3).trans <| (W2_keep m c b h2).trans <| (W1_of m c b h1).trans <| rfl
theorem W4_from3 (c : Dev nD) (b : Ref sig .tc) (h4 : b ≠ main_v43) :
    W4 m c (Proc.devRef .tc b) = W3 m c (Proc.devRef .tc b) :=
  (W4_keep m c b h4).trans <| rfl
theorem W5_from0 (c : Dev nD) (b : Ref sig .tc) (h1 : b ∉ hostOps0_W) (h2 : b ≠ main_v1) (h3 : b ∉ hostOps1_W) (h4 : b ≠ main_v43) (h5 : b ∉ hostOps2_W) :
    W5 m c (Proc.devRef .tc b) = m ((c : Thread nD τ).loc b) :=
  (W5_of m c b h5).trans <| (W4_keep m c b h4).trans <| (W3_of m c b h3).trans <| (W2_keep m c b h2).trans <| (W1_of m c b h1).trans <| rfl
theorem W5_from2 (c : Dev nD) (b : Ref sig .tc) (h3 : b ∉ hostOps1_W) (h4 : b ≠ main_v43) (h5 : b ∉ hostOps2_W) :
    W5 m c (Proc.devRef .tc b) = W2 m c (Proc.devRef .tc b) :=
  (W5_of m c b h5).trans <| (W4_keep m c b h4).trans <| (W3_of m c b h3).trans <| rfl
theorem W6_from0 (c : Dev nD) (b : Ref sig .tc) (h1 : b ∉ hostOps0_W) (h2 : b ≠ main_v1) (h3 : b ∉ hostOps1_W) (h4 : b ≠ main_v43) (h5 : b ∉ hostOps2_W) (h6 : b ≠ main_v58) :
    W6 m c (Proc.devRef .tc b) = m ((c : Thread nD τ).loc b) :=
  (W6_keep m c b h6).trans <| (W5_of m c b h5).trans <| (W4_keep m c b h4).trans <| (W3_of m c b h3).trans <| (W2_keep m c b h2).trans <| (W1_of m c b h1).trans <| rfl
theorem W6_from3 (c : Dev nD) (b : Ref sig .tc) (h4 : b ≠ main_v43) (h5 : b ∉ hostOps2_W) (h6 : b ≠ main_v58) :
    W6 m c (Proc.devRef .tc b) = W3 m c (Proc.devRef .tc b) :=
  (W6_keep m c b h6).trans <| (W5_of m c b h5).trans <| (W4_keep m c b h4).trans <| rfl
theorem W7_from0 (c : Dev nD) (b : Ref sig .tc) (h1 : b ∉ hostOps0_W) (h2 : b ≠ main_v1) (h3 : b ∉ hostOps1_W) (h4 : b ≠ main_v43) (h5 : b ∉ hostOps2_W) (h6 : b ≠ main_v58) (h7 : b ∉ hostOps3_W) :
    W7 m c (Proc.devRef .tc b) = m ((c : Thread nD τ).loc b) :=
  (W7_of m c b h7).trans <| (W6_keep m c b h6).trans <| (W5_of m c b h5).trans <| (W4_keep m c b h4).trans <| (W3_of m c b h3).trans <| (W2_keep m c b h2).trans <| (W1_of m c b h1).trans <| rfl
theorem W7_from2 (c : Dev nD) (b : Ref sig .tc) (h3 : b ∉ hostOps1_W) (h4 : b ≠ main_v43) (h5 : b ∉ hostOps2_W) (h6 : b ≠ main_v58) (h7 : b ∉ hostOps3_W) :
    W7 m c (Proc.devRef .tc b) = W2 m c (Proc.devRef .tc b) :=
  (W7_of m c b h7).trans <| (W6_keep m c b h6).trans <| (W5_of m c b h5).trans <| (W4_keep m c b h4).trans <| (W3_of m c b h3).trans <| rfl
theorem W8_from0 (c : Dev nD) (b : Ref sig .tc) (h1 : b ∉ hostOps0_W) (h2 : b ≠ main_v1) (h3 : b ∉ hostOps1_W) (h4 : b ≠ main_v43) (h5 : b ∉ hostOps2_W) (h6 : b ≠ main_v58) (h7 : b ∉ hostOps3_W) (h8 : b ≠ main_v73) :
    W8 m c (Proc.devRef .tc b) = m ((c : Thread nD τ).loc b) :=
  (W8_keep m c b h8).trans <| (W7_of m c b h7).trans <| (W6_keep m c b h6).trans <| (W5_of m c b h5).trans <| (W4_keep m c b h4).trans <| (W3_of m c b h3).trans <| (W2_keep m c b h2).trans <| (W1_of m c b h1).trans <| rfl
theorem W8_from3 (c : Dev nD) (b : Ref sig .tc) (h4 : b ≠ main_v43) (h5 : b ∉ hostOps2_W) (h6 : b ≠ main_v58) (h7 : b ∉ hostOps3_W) (h8 : b ≠ main_v73) :
    W8 m c (Proc.devRef .tc b) = W3 m c (Proc.devRef .tc b) :=
  (W8_keep m c b h8).trans <| (W7_of m c b h7).trans <| (W6_keep m c b h6).trans <| (W5_of m c b h5).trans <| (W4_keep m c b h4).trans <| rfl
theorem W9_from0 (c : Dev nD) (b : Ref sig .tc) (h1 : b ∉ hostOps0_W) (h2 : b ≠ main_v1) (h3 : b ∉ hostOps1_W) (h4 : b ≠ main_v43) (h5 : b ∉ hostOps2_W) (h6 : b ≠ main_v58) (h7 : b ∉ hostOps3_W) (h8 : b ≠ main_v73) (h9 : b ∉ hostOps4_W) :
    W9 m c (Proc.devRef .tc b) = m ((c : Thread nD τ).loc b) :=
  (W9_of m c b h9).trans <| (W8_keep m c b h8).trans <| (W7_of m c b h7).trans <| (W6_keep m c b h6).trans <| (W5_of m c b h5).trans <| (W4_keep m c b h4).trans <| (W3_of m c b h3).trans <| (W2_keep m c b h2).trans <| (W1_of m c b h1).trans <| rfl
theorem W10_from0 (c : Dev nD) (b : Ref sig .tc) (h1 : b ∉ hostOps0_W) (h2 : b ≠ main_v1) (h3 : b ∉ hostOps1_W) (h4 : b ≠ main_v43) (h5 : b ∉ hostOps2_W) (h6 : b ≠ main_v58) (h7 : b ∉ hostOps3_W) (h8 : b ≠ main_v73) (h9 : b ∉ hostOps4_W) (h10 : b ≠ main_v88) :
    W10 m c (Proc.devRef .tc b) = m ((c : Thread nD τ).loc b) :=
  (W10_keep m c b h10).trans <| (W9_of m c b h9).trans <| (W8_keep m c b h8).trans <| (W7_of m c b h7).trans <| (W6_keep m c b h6).trans <| (W5_of m c b h5).trans <| (W4_keep m c b h4).trans <| (W3_of m c b h3).trans <| (W2_keep m c b h2).trans <| (W1_of m c b h1).trans <| rfl
theorem W11_from0 (c : Dev nD) (b : Ref sig .tc) (h1 : b ∉ hostOps0_W) (h2 : b ≠ main_v1) (h3 : b ∉ hostOps1_W) (h4 : b ≠ main_v43) (h5 : b ∉ hostOps2_W) (h6 : b ≠ main_v58) (h7 : b ∉ hostOps3_W) (h8 : b ≠ main_v73) (h9 : b ∉ hostOps4_W) (h10 : b ≠ main_v88) (h11 : b ∉ hostOps5_W) :
    W11 m c (Proc.devRef .tc b) = m ((c : Thread nD τ).loc b) :=
  (W11_of m c b h11).trans <| (W10_keep m c b h10).trans <| (W9_of m c b h9).trans <| (W8_keep m c b h8).trans <| (W7_of m c b h7).trans <| (W6_keep m c b h6).trans <| (W5_of m c b h5).trans <| (W4_keep m c b h4).trans <| (W3_of m c b h3).trans <| (W2_keep m c b h2).trans <| (W1_of m c b h1).trans <| rfl

theorem W12_result (c : Dev nD) : W12 m c (Proc.devRef .tc main_v91) = (dat5 (U11 m) c).arrAt 4 cfg5.N := W12_out m c

def pdats : (p : Fin 6) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
  | ⟨5, _⟩ => fun c => dat5 (U11 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m c) ∗ ∃ r, prngReg c r)

section
set_option backward.isDefEq.respectTransparency.types false

-- A kernel region as an item between two valuations: only its windows' arrays change.
def rgOf (p : Fin 6) (lf : Pipeline.LaunchFacts (nD := nD) (τ := τ) cfgs p) (W W' : Dev nD → Valuation τ sig (Elt F))
    (hbody : ∀ c, Pipeline.BodyObligationLoose (pdats m p c) defs₀ 𝒱₀ () Set.univ)
    (hq : ∀ c w, (pdats m p c).q w = fullShare) (howed : ∀ c t, (pdats m p c).owed t = 0)
    (hrec : ∀ c, (pdats m p c).recorded 0 = Set.univ)
    (hA : ∀ c w, (pdats m p c).A w = W c (Pipeline.arrRef (cfgs p).spec w))
    (hΦ₀ : ∀ c, Pipeline.ΦA (cfgs p).spec c ⊢ (pdats m p c).Φ 0)
    (hΦₙ : ∀ c, (pdats m p c).Φ (Fin.last _) ⊢ Pipeline.ΦA (cfgs p).spec c)
    (hF : ∀ c w, (pdats m p c).arrAt w (cfgs p).N = W' c (Pipeline.arrRef (cfgs p).spec w))
    (hrest : ∀ c b, b ∉ Finset.univ.image (Pipeline.arrRef (cfgs p).spec) → W' c b = W c b)
    (post : Dev nD → sProp 𝕄)
    (hpost : ∀ c : Dev nD, iprop(StableHlo.held (c : Thread nD τ) (Pipeline.ucRefs τ sig) (W' c) ∗ R c) ⊢ post c) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (W c) ∗ R c)
  post := post
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m) lf.win lf.arr_whole c
      ((pdats m p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%O, HO⟩; iexists O; isplitr; · ipureintro; exact fun _ _ => Or.inl (hrec c ▸ Set.mem_univ _)
      iexact HO
    isplitl [Hp]; · iexact Hp
    iexact Hrest
  hin c := by
    refine .trans ?_ (hΦ₀ c); unfold Pipeline.ΦA
    iintro ⟨Hp, -, Hr⟩
    isplitl [Hr]; · iexact Hr
    iexact Hp
  hout c := by
    rw [Pipeline.ownSems0_none]; refine (hΦₙ c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => W c b) (fun b => W' c b) ((pdats m p c).arrAt · (cfgs p).N) (hF c) (hrest c)
    rw [Pipeline.unscopedBufs_held] at hjoin
    iintro ⟨Ha, HO, HY, Hrest⟩
    imodintro
    iapply (hpost c)
    isplitl [Ha Hrest]
    · iapply hjoin; isplitl [Ha] <;> iassumption
    isplitl [HY]; · iexact HY
    unfold Pipeline.Dat.owesAt Pipeline.owesWithin; rw [howed c]
    icases HO with ⟨%O, -, HO⟩; iexists O; iexact HO

def rg0 : Pipeline.RegionSeg (pcfgs (F := F)) adm (pdats m) () defs₀ 𝒱₀ L lv 0 :=
  rgOf m 0 launch0 (W1 m) (W2 m) (fun c => (body_obligation0 (U1 m) c).loose) (fun _ _ => rfl) (fun _ _ => rfl)
    (fun _ => rfl) (fun _ _ => rfl) (fun _ => .rfl) (fun _ => .rfl) (hF0 m) (hrest0 m) _ fun _ => .rfl

def rg1 : Pipeline.RegionSeg (pcfgs (F := F)) adm (pdats m) () defs₀ 𝒱₀ L lv 1 :=
  rgOf m 1 launch1 (W3 m) (W4 m) (fun c => (body_obligation1 (U3 m) c).loose) (fun _ _ => rfl) (fun _ _ => rfl)
    (fun _ => rfl) (fun _ _ => rfl) (fun _ => .rfl) (fun _ => .rfl) (hF1 m) (hrest1 m) _ fun _ => .rfl

def rg2 : Pipeline.RegionSeg (pcfgs (F := F)) adm (pdats m) () defs₀ 𝒱₀ L lv 2 :=
  rgOf m 2 launch2 (W5 m) (W6 m) (fun c => (body_obligation2 (U5 m) c).loose) (fun _ _ => rfl) (fun _ _ => rfl)
    (fun _ => rfl) (fun _ _ => rfl) (fun _ => .rfl) (fun _ => .rfl) (hF2 m) (hrest2 m) _ fun _ => .rfl

def rg3 : Pipeline.RegionSeg (pcfgs (F := F)) adm (pdats m) () defs₀ 𝒱₀ L lv 3 :=
  rgOf m 3 launch3 (W7 m) (W8 m) (fun c => (body_obligation3 (U7 m) c).loose) (fun _ _ => rfl) (fun _ _ => rfl)
    (fun _ => rfl) (fun _ _ => rfl) (fun _ => .rfl) (fun _ => .rfl) (hF3 m) (hrest3 m) _ fun _ => .rfl

def rg4 : Pipeline.RegionSeg (pcfgs (F := F)) adm (pdats m) () defs₀ 𝒱₀ L lv 4 :=
  rgOf m 4 launch4 (W9 m) (W10 m) (fun c => (body_obligation4 (U9 m) c).loose) (fun _ _ => rfl) (fun _ _ => rfl)
    (fun _ => rfl) (fun _ _ => rfl) (fun _ => .rfl) (fun _ => .rfl) (hF4 m) (hrest4 m) _ fun _ => .rfl

def rg5 : Pipeline.RegionSeg (pcfgs (F := F)) adm (pdats m) () defs₀ 𝒱₀ L lv 5 :=
  rgOf m 5 launch5 (W11 m) (W12 m) (fun c => (body_obligation5 (U11 m) c).loose) (fun _ _ => rfl) (fun _ _ => rfl)
    (fun _ => rfl) (fun _ _ => rfl) (hin5 (U11 m)) (hout5 (U11 m)) (hF5 m) (hrest5 m)
    (fun c => iprop(Tₙ m c ∗ ∃ W, owes (c : Thread nD τ) (0 : CellTallies nD τ sig Unit) W)) fun _ => BI.sep_assoc'

end

abbrev items : List (Pipeline.Seg (pcfgs (F := F)) adm (pdats m) () defs₀ 𝒱₀ L lv) :=
  [ .host (hseg hostOps0 hostOps0_sub hostOps0_fresh (W0 m)),
    .region (rg0 m),
    .host (hseg hostOps1 hostOps1_sub hostOps1_fresh (W2 m)),
    .region (rg1 m),
    .host (hseg hostOps2 hostOps2_sub hostOps2_fresh (W4 m)),
    .region (rg2 m),
    .host (hseg hostOps3 hostOps3_sub hostOps3_fresh (W6 m)),
    .region (rg3 m),
    .host (hseg hostOps4 hostOps4_sub hostOps4_fresh (W8 m)),
    .region (rg4 m),
    .host (hseg hostOps5 hostOps5_sub hostOps5_fresh (W10 m)),
    .region (rg5 m) ]

theorem main_run (c : Dev nD) : main (F := F) c = Pipeline.Seg.run (items m) := (main_chain c).trans (by chain_rfl)

-- The twelve items chained: every execution ends with each unscoped buffer at the last valuation.
set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

-- The arguments are among the buffers no item writes.
theorem frame (ρ : Dev nD → PrngReg) : θ_run defs (onTc (τ := τ) (main (F := F))) ⟨m, fun _ => 0, ρ⟩ (fun r => ∀ c : Dev nD, ∀ b ∈ argRefs,
      r.2.mem ((c.tc : Thread nD τ).loc b) = m ((c.tc : Thread nD τ).loc b)) :=
  (θ_run defs _ _).mono (fun r h c b hb => (h c _ (mem_uc b (argRefs_unscoped b hb))).trans (W12_arg m c b hb)) (run_all m ρ)

end Cert.KernelIdeal.Frame

end
-- ==== Proof.KSpec.lean ====
import proofs.«426835_j41618233099040_1_alg».proof.Proof.Gen.KernelIdeal
import proofs.«426835_j41618233099040_1_alg».proof.Proof.Spec

noncomputable section

namespace Cert.KSpec

open Idealize.ShloMosaic Cert.KernelIdeal Cert.KernelIdeal.Gen

variable {F : FTy → Type} [FloatOps F]

def indeg (dst : IVec S850000 32) : FVec F S50000 .f32 :=
  Host.scatterAdd scatter_S50000_S850000x1_S850000_n_0_0_1
    (broadcastInDim S50000 ![] bcast_S_S50000 (constant S_ .f32 0x00000000#32)) (Cert.Spec.col dst)
    (broadcastInDim S850000 ![] bcast_S_S850000 (constant S_ .f32 0x3F800000#32))

def indegB (dst : IVec S850000 32) : FVec F S50000x64 .f32 :=
  broadcastInDim S50000x64 ![0, 1] bcast_S50000x1_S50000x64_0_1 (broadcastInDim S50000x1 ![0] bcast_S50000_S50000x1_0 (indeg dst))

def eaAgg (dst : IVec S850000 32) (ea : FVec F S850000x16 .f32) : FVec F S50000x16 .f32 :=
  Host.scatterAdd scatter_S50000x16_S850000x1_S850000x16_1_0_0_1
    (broadcastInDim S50000x16 ![] bcast_S_S50000x16 (constant S_ .f32 0x00000000#32)) (Cert.Spec.col dst) ea

def nsum (h : FVec F S50000x64 .f32) (dst src : IVec S850000 32) : FVec F S50000x64 .f32 :=
  Host.scatterAdd scatter_S50000x64_S850000x1_S850000x64_1_0_0_1
    (broadcastInDim S50000x64 ![] bcast_S_S50000x64 (constant S_ .f32 0x00000000#32)) (Cert.Spec.col dst) (Cert.Spec.rowsAt h src)

def agg (h : FVec F S50000x64 .f32) (dst src : IVec S850000 32) (ea : FVec F S850000x16 .f32) : FVec F S50000x144 .f32 :=
  concatenate S50000x144 1 [⟨S50000x64, mulf (indegB dst) h⟩, ⟨S50000x64, nsum h dst src⟩, ⟨S50000x16, eaAgg dst ea⟩]
    concatenates_S50000x64_S50000x64_S50000x16_S50000x144_d1

def agg2 (h x : FVec F S50000x64 .f32) (dst src : IVec S850000 32) : FVec F S50000x192 .f32 :=
  concatenate S50000x192 1 [⟨S50000x64, mulf (indegB dst) h⟩, ⟨S50000x64, nsum h dst src⟩, ⟨S50000x64, nsum x dst src⟩]
    concatenates_S50000x64_S50000x64_S50000x64_S50000x192_d1

end Cert.KSpec

end
-- ==== Proof.LibUnitAxis.lean ====
import Idealize.ShloMosaic.Lib.Pipeline.Value
import Idealize.ShloMosaic.Lib.ValueIdx
import Idealize.ShloMosaic.Lib.ValueLayout

noncomputable section

namespace Cert.Glue

open Idealize.ShloMosaic Idealize.ShloMosaic.ValueIdx

variable {α : Type}

theorem row_eq {k : ℕ} (v : (⟨1, ![k]⟩ : Shape).Idx → α) (hc : (⟨1, ![k]⟩ : Shape).ShapeCasts ⟨2, ![1, k]⟩)
    (hb : (⟨1, ![k]⟩ : Shape).BroadcastsInDim ⟨2, ![1, k]⟩ (![1] : Fin 1 → Fin 2)) (hk : k ≠ 1) :
    shapeCast ⟨2, ![1, k]⟩ v hc = broadcastInDim ⟨2, ![1, k]⟩ ![1] hb v := by
  funext i
  obtain ⟨u, q, rfl⟩ : ∃ (u : Fin 1) (q : Fin k), i = ix2 u q := ⟨i 0, i 1, eq_ix2 i⟩
  rw [shapeCast_a_1a_apply v hc u q]
  exact (broadcastInDim_apply _ hb v (ix2 u q) (ix1 q) (fun a => match a with
    | ⟨0, _⟩ => by show q.val = if k = 1 then 0 else q.val; rw [if_neg hk])).symm

theorem one_eq (v : (⟨1, ![1]⟩ : Shape).Idx → α) (hc : (⟨1, ![1]⟩ : Shape).ShapeCasts ⟨2, ![1, 1]⟩)
    (hb : (⟨1, ![1]⟩ : Shape).BroadcastsInDim ⟨2, ![1, 1]⟩ (![1] : Fin 1 → Fin 2)) :
    shapeCast ⟨2, ![1, 1]⟩ v hc = broadcastInDim ⟨2, ![1, 1]⟩ ![1] hb v := by
  funext i
  obtain ⟨u, q, rfl⟩ : ∃ (u : Fin 1) (q : Fin 1), i = ix2 u q := ⟨i 0, i 1, eq_ix2 i⟩
  rw [shapeCast_a_1a_apply v hc u q]
  exact (broadcastInDim_apply _ hb v (ix2 u q) (ix1 q) (fun a => match a with
    | ⟨0, _⟩ => by show q.val = if (1 : ℕ) = 1 then 0 else q.val; rw [if_pos rfl]; omega)).symm

theorem col_eq {n : ℕ} (v : (⟨1, ![n]⟩ : Shape).Idx → α) (hc : (⟨1, ![n]⟩ : Shape).ShapeCasts ⟨2, ![n, 1]⟩)
    (hb : (⟨1, ![n]⟩ : Shape).BroadcastsInDim ⟨2, ![n, 1]⟩ (![0] : Fin 1 → Fin 2)) (hn : n ≠ 1) :
    shapeCast ⟨2, ![n, 1]⟩ v hc = broadcastInDim ⟨2, ![n, 1]⟩ ![0] hb v := by
  funext i
  obtain ⟨p, u, rfl⟩ : ∃ (p : Fin n) (u : Fin 1), i = ix2 p u := ⟨i 0, i 1, eq_ix2 i⟩
  rw [shapeCast_apply v hc (ix2 p u) (ix1 p) (by
    have hu : u.val = 0 := by omega
    rw [Shape.rowMajor_val_two, Shape.rowMajor_val_one]
    show p.val = p.val * 1 + u.val
    rw [hu, Nat.mul_one, Nat.add_zero])]
  exact (broadcastInDim_apply _ hb v (ix2 p u) (ix1 p) (fun a => match a with
    | ⟨0, _⟩ => by show p.val = if n = 1 then 0 else p.val; rw [if_neg hn])).symm

end Cert.Glue

end
-- ==== Proof.LibNary.lean ====
import Idealize.ShloMosaic.Lib.StableHlo.Run

noncomputable section

namespace Cert.LibNary

open Idealize.ShloMosaic Idealize.ShloMosaic.StableHlo

variable {nD : Nat} {τ : Topo} {sig : RefSig} {Val : EltTy → Type} {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary

end
-- ==== Proof.KI.HostReads.lean ====
import proofs.«426835_j41618233099040_1_alg».proof.Proof.Gen.KernelIdeal.Launch
import proofs.«426835_j41618233099040_1_alg».proof.Proof.KSpec
import proofs.«426835_j41618233099040_1_alg».proof.Proof.LibNary
import Idealize.ShloMosaic.Lib.StableHlo.Run
import Idealize.ShloMosaic.Lib.Pipeline.Frame

set_option maxRecDepth 16384

noncomputable section

namespace Cert.KernelIdeal.Frame

open Cert.KernelIdeal Cert.KernelIdeal.Gen
open Idealize.ShloMosaic Idealize.ShloMosaic.TcCoe Idealize.SL.Sem Idealize.ShloMosaic.StableHlo

variable {F : FTy → Type} [FloatOps F]

abbrev s1a : List (HloOp τ sig (Elt F)) := hostOps1.take 10
abbrev s1b : List (HloOp τ sig (Elt F)) := (hostOps1.drop 10).take 7
abbrev s1c : List (HloOp τ sig (Elt F)) := (hostOps1.drop 17).take 4
abbrev s1d : List (HloOp τ sig (Elt F)) := (hostOps1.drop 21).take 13
abbrev s1e : List (HloOp τ sig (Elt F)) := (hostOps1.drop 34).take 13
abbrev s1f : List (HloOp τ sig (Elt F)) := hostOps1.drop 47
abbrev s2a : List (HloOp τ sig (Elt F)) := hostOps2.take 13
abbrev s2b : List (HloOp τ sig (Elt F)) := hostOps2.drop 13
abbrev s3a : List (HloOp τ sig (Elt F)) := hostOps3.take 13
abbrev s3b : List (HloOp τ sig (Elt F)) := hostOps3.drop 13
abbrev s4a : List (HloOp τ sig (Elt F)) := hostOps4.take 13
abbrev s4b : List (HloOp τ sig (Elt F)) := hostOps4.drop 13

local macro "read_piece" : tactic =>
  `(tactic| (try dsimp only [s1a, s1b, s1c, s1d, s1e, s1f, s2a, s2b, s3a, s3b, s4a, s4b, hostOps1, hostOps2, hostOps3, hostOps4, List.take, List.drop]
             simp (disch := decide) only [after_cons, after_nil,
      nullary_result', unary_result', binary_result', ternary_result', quaternary_result', reshape_result', Cert.LibNary.nary3_result',
      nullary_result_ne', unary_result_ne', binary_result_ne', ternary_result_ne', quaternary_result_ne', reshape_result_ne',
      nary_result_ne']))

local macro "writes_in" : tactic =>
  `(tactic| (dsimp only [s1a, s1b, s1c, s1d, s1e, s1f, s2a, s2b, s3a, s3b, s4a, s4b, hostOps1, hostOps2, hostOps3, hostOps4, List.take, List.drop]
             simp only [List.Forall, nullary_writes, unary_writes, binary_writes, ternary_writes, reshape_writes, nary_writes]
             repeat' apply And.intro
             all_goals (rw [Finset.singleton_subset_iff, List.mem_toFinset]; exact List.mem_map.mpr ⟨_, by decide, rfl⟩)))

def cat144 (ic : FVec F S50000x1 .f32) (h n : FVec F S50000x64 .f32) (t : FVec F S50000x16 .f32) : FVec F S50000x144 .f32 :=
  concatenate S50000x144 1 [⟨S50000x64, mulf (broadcastInDim S50000x64 ![0, 1] bcast_S50000x1_S50000x64_0_1 ic) h⟩,
    ⟨S50000x64, n⟩, ⟨S50000x16, t⟩] concatenates_S50000x64_S50000x64_S50000x16_S50000x144_d1

def cat192 (ic : FVec F S50000x1 .f32) (h n t : FVec F S50000x64 .f32) : FVec F S50000x192 .f32 :=
  concatenate S50000x192 1 [⟨S50000x64, mulf (broadcastInDim S50000x64 ![0, 1] bcast_S50000x1_S50000x64_0_1 ic) h⟩,
    ⟨S50000x64, n⟩, ⟨S50000x64, t⟩] concatenates_S50000x64_S50000x64_S50000x64_S50000x192_d1

abbrev s1a_W : List (Ref sig .tc) := [main_v2, main_v3, main_v4, main_v5, main_v6, main_v7, main_v8, main_cst, main_v9, main_v10]
theorem s1a_writes : (s1a : List (HloOp τ sig (Elt F))).Forall fun op => op.writes ⊆ (s1a_W.map (Proc.devRef (τ := τ) .tc)).toFinset := by
  writes_in

theorem s1a_keep (V : Valuation τ sig (Elt F)) (r : Ref sig .tc) (hr : r ∉ s1a_W) :
    after s1a V (Proc.devRef .tc r) = V (Proc.devRef .tc r) := after_of_writes_sub s1a V s1a_writes hr

abbrev s1b_W : List (Ref sig .tc) := [main_cst_0, main_v11, main_cst_1, main_v12, main_v13, main_v14, main_v15]
theorem s1b_writes : (s1b : List (HloOp τ sig (Elt F))).Forall fun op => op.writes ⊆ (s1b_W.map (Proc.devRef (τ := τ) .tc)).toFinset := by
  writes_in

theorem s1b_keep (V : Valuation τ sig (Elt F)) (r : Ref sig .tc) (hr : r ∉ s1b_W) :
    after s1b V (Proc.devRef .tc r) = V (Proc.devRef .tc r) := after_of_writes_sub s1b V s1b_writes hr

abbrev s1c_W : List (Ref sig .tc) := [main_cst_2, main_v16, main_v17, main_v18]
theorem s1c_writes : (s1c : List (HloOp τ sig (Elt F))).Forall fun op => op.writes ⊆ (s1c_W.map (Proc.devRef (τ := τ) .tc)).toFinset := by
  writes_in

theorem s1c_keep (V : Valuation τ sig (Elt F)) (r : Ref sig .tc) (hr : r ∉ s1c_W) :
    after s1c V (Proc.devRef .tc r) = V (Proc.devRef .tc r) := after_of_writes_sub s1c V s1c_writes hr

abbrev s1d_W : List (Ref sig .tc) := [main_c, main_v19, main_v20, main_c_3, main_v21, main_v22, main_v23, main_v24, main_v25, main_cst_4, main_v26, main_v27, main_v28]
theorem s1d_writes : (s1d : List (HloOp τ sig (Elt F))).Forall fun op => op.writes ⊆ (s1d_W.map (Proc.devRef (τ := τ) .tc)).toFinset := by
  writes_in

theorem s1d_keep (V : Valuation τ sig (Elt F)) (r : Ref sig .tc) (hr : r ∉ s1d_W) :
    after s1d V (Proc.devRef .tc r) = V (Proc.devRef .tc r) := after_of_writes_sub s1d V s1d_writes hr

abbrev s1e_W : List (Ref sig .tc) := [main_c_5, main_v29, main_v30, main_c_6, main_v31, main_v32, main_v33, main_v34, main_v35, main_cst_7, main_v36, main_v37, main_v38]
theorem s1e_writes : (s1e : List (HloOp τ sig (Elt F))).Forall fun op => op.writes ⊆ (s1e_W.map (Proc.devRef (τ := τ) .tc)).toFinset := by
  writes_in

theorem s1e_keep (V : Valuation τ sig (Elt F)) (r : Ref sig .tc) (hr : r ∉ s1e_W) :
    after s1e V (Proc.devRef .tc r) = V (Proc.devRef .tc r) := after_of_writes_sub s1e V s1e_writes hr

abbrev s1f_W : List (Ref sig .tc) := [main_v39, main_v40, main_v41, main_v42]
theorem s1f_writes : (s1f : List (HloOp τ sig (Elt F))).Forall fun op => op.writes ⊆ (s1f_W.map (Proc.devRef (τ := τ) .tc)).toFinset := by
  writes_in

theorem s1f_keep (V : Valuation τ sig (Elt F)) (r : Ref sig .tc) (hr : r ∉ s1f_W) :
    after s1f V (Proc.devRef .tc r) = V (Proc.devRef .tc r) := after_of_writes_sub s1f V s1f_writes hr

abbrev s2a_W : List (Ref sig .tc) := [main_c_8, main_v44, main_v45, main_c_9, main_v46, main_v47, main_v48, main_v49, main_v50, main_cst_10, main_v51, main_v52, main_v53]
theorem s2a_writes : (s2a : List (HloOp τ sig (Elt F))).Forall fun op => op.writes ⊆ (s2a_W.map (Proc.devRef (τ := τ) .tc)).toFinset := by
  writes_in

theorem s2a_keep (V : Valuation τ sig (Elt F)) (r : Ref sig .tc) (hr : r ∉ s2a_W) :
    after s2a V (Proc.devRef .tc r) = V (Proc.devRef .tc r) := after_of_writes_sub s2a V s2a_writes hr

abbrev s2b_W : List (Ref sig .tc) := [main_v54, main_v55, main_v56, main_v57]
theorem s2b_writes : (s2b : List (HloOp τ sig (Elt F))).Forall fun op => op.writes ⊆ (s2b_W.map (Proc.devRef (τ := τ) .tc)).toFinset := by
  writes_in

theorem s2b_keep (V : Valuation τ sig (Elt F)) (r : Ref sig .tc) (hr : r ∉ s2b_W) :
    after s2b V (Proc.devRef .tc r) = V (Proc.devRef .tc r) := after_of_writes_sub s2b V s2b_writes hr

abbrev s3a_W : List (Ref sig .tc) := [main_c_11, main_v59, main_v60, main_c_12, main_v61, main_v62, main_v63, main_v64, main_v65, main_cst_13, main_v66, main_v67, main_v68]
theorem s3a_writes : (s3a : List (HloOp τ sig (Elt F))).Forall fun op => op.writes ⊆ (s3a_W.map (Proc.devRef (τ := τ) .tc)).toFinset := by
  writes_in

theorem s3a_keep (V : Valuation τ sig (Elt F)) (r : Ref sig .tc) (hr : r ∉ s3a_W) :
    after s3a V (Proc.devRef .tc r) = V (Proc.devRef .tc r) := after_of_writes_sub s3a V s3a_writes hr

abbrev s3b_W : List (Ref sig .tc) := [main_v69, main_v70, main_v71, main_v72]
theorem s3b_writes : (s3b : List (HloOp τ sig (Elt F))).Forall fun op => op.writes ⊆ (s3b_W.map (Proc.devRef (τ := τ) .tc)).toFinset := by
  writes_in

theorem s3b_keep (V : Valuation τ sig (Elt F)) (r : Ref sig .tc) (hr : r ∉ s3b_W) :
    after s3b V (Proc.devRef .tc r) = V (Proc.devRef .tc r) := after_of_writes_sub s3b V s3b_writes hr

abbrev s4a_W : List (Ref sig .tc) := [main_c_14, main_v74, main_v75, main_c_15, main_v76, main_v77, main_v78, main_v79, main_v80, main_cst_16, main_v81, main_v82, main_v83]
theorem s4a_writes : (s4a : List (HloOp τ sig (Elt F))).Forall fun op => op.writes ⊆ (s4a_W.map (Proc.devRef (τ := τ) .tc)).toFinset := by
  writes_in

theorem s4a_keep (V : Valuation τ sig (Elt F)) (r : Ref sig .tc) (hr : r ∉ s4a_W) :
    after s4a V (Proc.devRef .tc r) = V (Proc.devRef .tc r) := after_of_writes_sub s4a V s4a_writes hr

abbrev s4b_W : List (Ref sig .tc) := [main_v84, main_v85, main_v86, main_v87]
theorem s4b_writes : (s4b : List (HloOp τ sig (Elt F))).Forall fun op => op.writes ⊆ (s4b_W.map (Proc.devRef (τ := τ) .tc)).toFinset := by
  writes_in

theorem s4b_keep (V : Valuation τ sig (Elt F)) (r : Ref sig .tc) (hr : r ∉ s4b_W) :
    after s4b V (Proc.devRef .tc r) = V (Proc.devRef .tc r) := after_of_writes_sub s4b V s4b_writes hr

theorem s1a_src (V : Valuation τ sig (Elt F)) : after s1a V (Proc.devRef .tc main_v5) = Cert.Spec.src (V (Proc.devRef .tc main_arg10)) := by
  read_piece
  rfl
theorem s1a_dst (V : Valuation τ sig (Elt F)) : after s1a V (Proc.devRef .tc main_v8) = Cert.Spec.dst (V (Proc.devRef .tc main_arg10)) := by
  read_piece
  rfl
theorem s1a_ea (V : Valuation τ sig (Elt F)) : after s1a V (Proc.devRef .tc main_v10) = Cert.Spec.ea (V (Proc.devRef .tc main_arg1)) := by
  read_piece
  rfl
theorem s1b_ic (V : Valuation τ sig (Elt F)) : after s1b V (Proc.devRef .tc main_v15)
    = broadcastInDim S50000x1 ![0] bcast_S50000_S50000x1_0 (Cert.KSpec.indeg (V (Proc.devRef .tc main_v8))) := by
  read_piece
  rfl
theorem s1c_ea (V : Valuation τ sig (Elt F)) : after s1c V (Proc.devRef .tc main_v18)
    = Cert.KSpec.eaAgg (V (Proc.devRef .tc main_v8)) (V (Proc.devRef .tc main_v10)) := by
  read_piece
  rfl
theorem s1d_hn (V : Valuation τ sig (Elt F)) :
    after s1d V (Proc.devRef .tc main_v28) = Cert.KSpec.nsum (V (Proc.devRef .tc main_arg0)) (V (Proc.devRef .tc main_v8)) (V (Proc.devRef .tc main_v5)) := by
  read_piece
  rfl
theorem s1e_hn (V : Valuation τ sig (Elt F)) :
    after s1e V (Proc.devRef .tc main_v38) = Cert.KSpec.nsum (V (Proc.devRef .tc main_v1)) (V (Proc.devRef .tc main_v8)) (V (Proc.devRef .tc main_v5)) := by
  read_piece
  rfl
theorem s1f_cat (V : Valuation τ sig (Elt F)) :
    after s1f V (Proc.devRef .tc main_v41)
      = cat144 (V (Proc.devRef .tc main_v15)) (V (Proc.devRef .tc main_v1)) (V (Proc.devRef .tc main_v38)) (V (Proc.devRef .tc main_v18)) := by
  read_piece
  rfl
theorem s1f_b (V : Valuation τ sig (Elt F)) :
    after s1f V (Proc.devRef .tc main_v42) = shapeCast S1x64 (V (Proc.devRef .tc main_arg5)) shapeCasts_S64_S1x64 := by
  read_piece
  rfl
theorem s2a_hn (V : Valuation τ sig (Elt F)) :
    after s2a V (Proc.devRef .tc main_v53) = Cert.KSpec.nsum (V (Proc.devRef .tc main_v43)) (V (Proc.devRef .tc main_v8)) (V (Proc.devRef .tc main_v5)) := by
  read_piece
  rfl
theorem s2b_cat (V : Valuation τ sig (Elt F)) :
    after s2b V (Proc.devRef .tc main_v56)
      = cat144 (V (Proc.devRef .tc main_v15)) (V (Proc.devRef .tc main_v43)) (V (Proc.devRef .tc main_v53)) (V (Proc.devRef .tc main_v18)) := by
  read_piece
  rfl
theorem s2b_b (V : Valuation τ sig (Elt F)) :
    after s2b V (Proc.devRef .tc main_v57) = shapeCast S1x64 (V (Proc.devRef .tc main_arg5)) shapeCasts_S64_S1x64 := by
  read_piece
  rfl
theorem s3a_hn (V : Valuation τ sig (Elt F)) :
    after s3a V (Proc.devRef .tc main_v68) = Cert.KSpec.nsum (V (Proc.devRef .tc main_v58)) (V (Proc.devRef .tc main_v8)) (V (Proc.devRef .tc main_v5)) := by
  read_piece
  rfl
theorem s3b_cat (V : Valuation τ sig (Elt F)) :
    after s3b V (Proc.devRef .tc main_v71)
      = cat144 (V (Proc.devRef .tc main_v15)) (V (Proc.devRef .tc main_v58)) (V (Proc.devRef .tc main_v68)) (V (Proc.devRef .tc main_v18)) := by
  read_piece
  rfl
theorem s3b_b (V : Valuation τ sig (Elt F)) :
    after s3b V (Proc.devRef .tc main_v72) = shapeCast S1x64 (V (Proc.devRef .tc main_arg5)) shapeCasts_S64_S1x64 := by
  read_piece
  rfl
theorem s4a_hn (V : Valuation τ sig (Elt F)) :
    after s4a V (Proc.devRef .tc main_v83) = Cert.KSpec.nsum (V (Proc.devRef .tc main_v73)) (V (Proc.devRef .tc main_v8)) (V (Proc.devRef .tc main_v5)) := by
  read_piece
  rfl
theorem s4b_cat (V : Valuation τ sig (Elt F)) :
    after s4b V (Proc.devRef .tc main_v86)
      = cat192 (V (Proc.devRef .tc main_v15)) (V (Proc.devRef .tc main_v73)) (V (Proc.devRef .tc main_v83)) (V (Proc.devRef .tc main_v28)) := by
  read_piece
  rfl
theorem s4b_b (V : Valuation τ sig (Elt F)) :
    after s4b V (Proc.devRef .tc main_v87) = shapeCast S1x64 (V (Proc.devRef .tc main_arg7)) shapeCasts_S64_S1x64 := by
  read_piece
  rfl

theorem hostOps1_split : (hostOps1 : List (HloOp τ sig (Elt F))) = s1a ++ (s1b ++ (s1c ++ (s1d ++ (s1e ++ s1f)))) := rfl
theorem hostOps2_split : (hostOps2 : List (HloOp τ sig (Elt F))) = s2a ++ s2b := rfl
theorem hostOps3_split : (hostOps3 : List (HloOp τ sig (Elt F))) = s3a ++ s3b := rfl
theorem hostOps4_split : (hostOps4 : List (HloOp τ sig (Elt F))) = s4a ++ s4b := rfl

local macro "peel" : tactic => `(tactic| repeat (first
  | rw [s1a_src] | rw [s1a_dst] | rw [s1a_ea] | rw [s1b_ic] | rw [s1c_ea] | rw [s1d_hn] | rw [s1e_hn] | rw [s1f_cat] | rw [s1f_b]
  | rw [s2a_hn] | rw [s2b_cat] | rw [s2b_b] | rw [s3a_hn] | rw [s3b_cat] | rw [s3b_b] | rw [s4a_hn] | rw [s4b_cat] | rw [s4b_b]
  | (rw [s1a_keep]; rotate_left; decide) | (rw [s1b_keep]; rotate_left; decide) | (rw [s1c_keep]; rotate_left; decide)
  | (rw [s1d_keep]; rotate_left; decide) | (rw [s1e_keep]; rotate_left; decide) | (rw [s1f_keep]; rotate_left; decide)
  | (rw [s2a_keep]; rotate_left; decide) | (rw [s2b_keep]; rotate_left; decide) | (rw [s3a_keep]; rotate_left; decide)
  | (rw [s3b_keep]; rotate_left; decide) | (rw [s4a_keep]; rotate_left; decide) | (rw [s4b_keep]; rotate_left; decide)))

section
variable (V : Valuation τ sig (Elt F))

theorem hr1_src : after hostOps1 V (Proc.devRef .tc main_v5) = Cert.Spec.src (V (Proc.devRef .tc main_arg10)) := by
  rw [hostOps1_split]; simp only [after_append]; peel
theorem hr1_dst : after hostOps1 V (Proc.devRef .tc main_v8) = Cert.Spec.dst (V (Proc.devRef .tc main_arg10)) := by
  rw [hostOps1_split]; simp only [after_append]; peel
theorem hr1_ic : after hostOps1 V (Proc.devRef .tc main_v15)
    = broadcastInDim S50000x1 ![0] bcast_S50000_S50000x1_0 (Cert.KSpec.indeg (Cert.Spec.dst (V (Proc.devRef .tc main_arg10)))) := by
  rw [hostOps1_split]; simp only [after_append]; peel
theorem hr1_eaAgg : after hostOps1 V (Proc.devRef .tc main_v18)
    = Cert.KSpec.eaAgg (Cert.Spec.dst (V (Proc.devRef .tc main_arg10))) (Cert.Spec.ea (V (Proc.devRef .tc main_arg1))) := by
  rw [hostOps1_split]; simp only [after_append]; peel
theorem hr1_xn : after hostOps1 V (Proc.devRef .tc main_v28)
    = Cert.KSpec.nsum (V (Proc.devRef .tc main_arg0)) (Cert.Spec.dst (V (Proc.devRef .tc main_arg10))) (Cert.Spec.src (V (Proc.devRef .tc main_arg10))) := by
  rw [hostOps1_split]; simp only [after_append]; peel
theorem hr1_agg : after hostOps1 V (Proc.devRef .tc main_v41)
    = Cert.KSpec.agg (V (Proc.devRef .tc main_v1)) (Cert.Spec.dst (V (Proc.devRef .tc main_arg10))) (Cert.Spec.src (V (Proc.devRef .tc main_arg10)))
        (Cert.Spec.ea (V (Proc.devRef .tc main_arg1))) := by
  rw [hostOps1_split]; simp only [after_append]; peel
  rfl
theorem hr1_b : after hostOps1 V (Proc.devRef .tc main_v42) = shapeCast S1x64 (V (Proc.devRef .tc main_arg5)) shapeCasts_S64_S1x64 := by
  rw [hostOps1_split]; simp only [after_append]; peel

theorem hr2_agg : after hostOps2 V (Proc.devRef .tc main_v56)
    = cat144 (V (Proc.devRef .tc main_v15)) (V (Proc.devRef .tc main_v43))
        (Cert.KSpec.nsum (V (Proc.devRef .tc main_v43)) (V (Proc.devRef .tc main_v8)) (V (Proc.devRef .tc main_v5))) (V (Proc.devRef .tc main_v18)) := by
  rw [hostOps2_split]; simp only [after_append]; peel
theorem hr2_b : after hostOps2 V (Proc.devRef .tc main_v57) = shapeCast S1x64 (V (Proc.devRef .tc main_arg5)) shapeCasts_S64_S1x64 := by
  rw [hostOps2_split]; simp only [after_append]; peel
theorem hr3_agg : after hostOps3 V (Proc.devRef .tc main_v71)
    = cat144 (V (Proc.devRef .tc main_v15)) (V (Proc.devRef .tc main_v58))
        (Cert.KSpec.nsum (V (Proc.devRef .tc main_v58)) (V (Proc.devRef .tc main_v8)) (V (Proc.devRef .tc main_v5))) (V (Proc.devRef .tc main_v18)) := by
  rw [hostOps3_split]; simp only [after_append]; peel
theorem hr3_b : after hostOps3 V (Proc.devRef .tc main_v72) = shapeCast S1x64 (V (Proc.devRef .tc main_arg5)) shapeCasts_S64_S1x64 := by
  rw [hostOps3_split]; simp only [after_append]; peel
theorem hr4_agg : after hostOps4 V (Proc.devRef .tc main_v86)
    = cat192 (V (Proc.devRef .tc main_v15)) (V (Proc.devRef .tc main_v73))
        (Cert.KSpec.nsum (V (Proc.devRef .tc main_v73)) (V (Proc.devRef .tc main_v8)) (V (Proc.devRef .tc main_v5))) (V (Proc.devRef .tc main_v28)) := by
  rw [hostOps4_split]; simp only [after_append]; peel
theorem hr4_b : after hostOps4 V (Proc.devRef .tc main_v87) = shapeCast S1x64 (V (Proc.devRef .tc main_arg7)) shapeCasts_S64_S1x64 := by
  rw [hostOps4_split]; simp only [after_append]; peel

theorem hr0_b : after hostOps0 V (Proc.devRef .tc main_v0) = shapeCast S1x64 (V (Proc.devRef .tc main_arg3)) shapeCasts_S64_S1x64 := by
  read_piece
  rfl
theorem hr5_batch : after hostOps5 V (Proc.devRef .tc main_v89) = shapeCast S50000x1 (V (Proc.devRef .tc main_arg11)) shapeCasts_S50000_S50000x1 := by
  read_piece
  rfl
theorem hr5_b : after hostOps5 V (Proc.devRef .tc main_v90) = shapeCast S1x1 (V (Proc.devRef .tc main_arg9)) shapeCasts_S1_S1x1 := by
  read_piece
  rfl

end

end Cert.KernelIdeal.Frame

end
-- ==== Proof.KI.KValue.lean ====
import proofs.«426835_j41618233099040_1_alg».proof.Proof.KI.Main
import proofs.«426835_j41618233099040_1_alg».proof.Proof.KSpec
import proofs.«426835_j41618233099040_1_alg».proof.Proof.LibUnitAxis
import proofs.«426835_j41618233099040_1_alg».proof.Proof.KI.HostReads
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

abbrev aX : FVec Ideal S50000x64 .f32 := m ((c : Thread nD τ).loc main_arg0)
abbrev aE : FVec Ideal S800000x16 .f32 := m ((c : Thread nD τ).loc main_arg1)
abbrev aWnh : FVec Ideal S64x64 .f32 := m ((c : Thread nD τ).loc main_arg2)
abbrev aBnh : FVec Ideal S64 .f32 := m ((c : Thread nD τ).loc main_arg3)
abbrev aWmh : FVec Ideal S144x64 .f32 := m ((c : Thread nD τ).loc main_arg4)
abbrev aBmh : FVec Ideal S64 .f32 := m ((c : Thread nD τ).loc main_arg5)
abbrev aWom : FVec Ideal S192x64 .f32 := m ((c : Thread nD τ).loc main_arg6)
abbrev aBom : FVec Ideal S64 .f32 := m ((c : Thread nD τ).loc main_arg7)
abbrev aWout : FVec Ideal S64x1 .f32 := m ((c : Thread nD τ).loc main_arg8)
abbrev aBout : FVec Ideal S1 .f32 := m ((c : Thread nD τ).loc main_arg9)
abbrev aEi : IVec S2x800000 32 := m ((c : Thread nD τ).loc main_arg10)
abbrev aBatch : IVec S50000 32 := m ((c : Thread nD τ).loc main_arg11)

abbrev eDst : IVec S850000 32 := Cert.Spec.dst (aEi m c)
abbrev eSrc : IVec S850000 32 := Cert.Spec.src (aEi m c)
abbrev eEa : FVec Ideal S850000x16 .f32 := Cert.Spec.ea (aE m c)

def kH0 : FVec Ideal S50000x64 .f32 := Cert.Spec.h0 (aX m c) (aWnh m c) (Cert.Spec.row64 (aBnh m c))
def kStep (h : FVec Ideal S50000x64 .f32) : FVec Ideal S50000x64 .f32 :=
  Cert.Spec.layer (Cert.KSpec.agg h (eDst m c) (eSrc m c) (eEa m c)) (aWmh m c) (Cert.Spec.row64 (aBmh m c)) (kH0 m c)
def kH1 : FVec Ideal S50000x64 .f32 := kStep m c (kH0 m c)
def kH2 : FVec Ideal S50000x64 .f32 := kStep m c (kH1 m c)
def kH3 : FVec Ideal S50000x64 .f32 := kStep m c (kH2 m c)
def kOut : FVec Ideal S50000x64 .f32 :=
  Cert.Spec.outm (Cert.KSpec.agg2 (kH3 m c) (aX m c) (eDst m c) (eSrc m c)) (aWom m c) (Cert.Spec.row64 (aBom m c))
def kRes : FVec Ideal S256x1 .f32 :=
  Cert.Spec.pool (kOut m c) (broadcastInDim Cert.ReferenceIdeal.S50000x1 ![0] Cert.ReferenceIdeal.Gen.bcast_S50000_S50000x1_0 (aBatch m c)) (aWout m c)
    (broadcastInDim Cert.ReferenceIdeal.S1x1 ![1] Cert.ReferenceIdeal.Gen.bcast_S1_S1x1_1 (aBout m c))

theorem W1_v0 : W1 m c (Proc.devRef .tc main_v0) = Cert.Spec.row64 (aBnh m c) := by
  show StableHlo.after hostOps0 (W0 m c) (Proc.devRef .tc main_v0) = _
  rw [hr0_b]
  exact Cert.Glue.row_eq _ _ _ (by decide)

theorem W2_v1 : W2 m c (Proc.devRef .tc main_v1) = kH0 m c := by
  rw [W2_out, final0 (U1 m) c]
  dsimp only [U1]
  rw [W1_v0, show W1 m c (Proc.devRef .tc main_arg0) = aX m c from W1_from0 m c main_arg0 (by decide),
    show W1 m c (Proc.devRef .tc main_arg2) = aWnh m c from W1_from0 m c main_arg2 (by decide)]
  rfl

theorem W2_arg (b : Ref sig .tc) (h0 : b ∉ hostOps0_W) (h1 : b ≠ main_v1) : W2 m c (Proc.devRef .tc b) = m ((c : Thread nD τ).loc b) :=
  (W2_keep m c b h1).trans <| (W1_of m c b h0).trans rfl

theorem W3_v5 : W3 m c (Proc.devRef .tc main_v5) = eSrc m c := by
  show StableHlo.after hostOps1 (W2 m c) (Proc.devRef .tc main_v5) = _
  rw [hr1_src, W2_arg m c main_arg10 (by decide) (by decide)]
theorem W3_v8 : W3 m c (Proc.devRef .tc main_v8) = eDst m c := by
  show StableHlo.after hostOps1 (W2 m c) (Proc.devRef .tc main_v8) = _
  rw [hr1_dst, W2_arg m c main_arg10 (by decide) (by decide)]
theorem W3_v15 : W3 m c (Proc.devRef .tc main_v15)
    = broadcastInDim S50000x1 ![0] bcast_S50000_S50000x1_0 (Cert.KSpec.indeg (F := Ideal) (eDst m c)) := by
  show StableHlo.after hostOps1 (W2 m c) (Proc.devRef .tc main_v15) = _
  rw [hr1_ic, W2_arg m c main_arg10 (by decide) (by decide)]
theorem W3_v18 : W3 m c (Proc.devRef .tc main_v18) = Cert.KSpec.eaAgg (eDst m c) (eEa m c) := by
  show StableHlo.after hostOps1 (W2 m c) (Proc.devRef .tc main_v18) = _
  rw [hr1_eaAgg, W2_arg m c main_arg10 (by decide) (by decide), W2_arg m c main_arg1 (by decide) (by decide)]
theorem W3_v28 : W3 m c (Proc.devRef .tc main_v28) = Cert.KSpec.nsum (aX m c) (eDst m c) (eSrc m c) := by
  show StableHlo.after hostOps1 (W2 m c) (Proc.devRef .tc main_v28) = _
  rw [hr1_xn, W2_arg m c main_arg10 (by decide) (by decide), W2_arg m c main_arg0 (by decide) (by decide)]
theorem W3_v41 : W3 m c (Proc.devRef .tc main_v41) = Cert.KSpec.agg (kH0 m c) (eDst m c) (eSrc m c) (eEa m c) := by
  show StableHlo.after hostOps1 (W2 m c) (Proc.devRef .tc main_v41) = _
  rw [hr1_agg, W2_arg m c main_arg10 (by decide) (by decide), W2_arg m c main_arg1 (by decide) (by decide), W2_v1]
theorem W3_v42 : W3 m c (Proc.devRef .tc main_v42) = Cert.Spec.row64 (aBmh m c) := by
  show StableHlo.after hostOps1 (W2 m c) (Proc.devRef .tc main_v42) = _
  rw [hr1_b, W2_arg m c main_arg5 (by decide) (by decide)]
  exact Cert.Glue.row_eq _ _ _ (by decide)

theorem W4_v43 : W4 m c (Proc.devRef .tc main_v43) = kH1 m c := by
  rw [W4_out, final1 (U3 m) c]
  dsimp only [U3]
  rw [W3_v41, W3_v42, show W3 m c (Proc.devRef .tc main_arg4) = aWmh m c from W3_from0 m c main_arg4 (by decide) (by decide) (by decide),
    show W3 m c (Proc.devRef .tc main_v1) = kH0 m c from (W3_from2 m c main_v1 (by decide)).trans (W2_v1 m c)]
  rfl

theorem Wk_v5 {W : Valuation τ sig (Elt Ideal)} (h : W (Proc.devRef .tc main_v5) = W3 m c (Proc.devRef .tc main_v5)) :
    W (Proc.devRef .tc main_v5) = eSrc m c := h.trans (W3_v5 m c)
theorem Wk_v8 {W : Valuation τ sig (Elt Ideal)} (h : W (Proc.devRef .tc main_v8) = W3 m c (Proc.devRef .tc main_v8)) :
    W (Proc.devRef .tc main_v8) = eDst m c := h.trans (W3_v8 m c)
theorem Wk_v15 {W : Valuation τ sig (Elt Ideal)} (h : W (Proc.devRef .tc main_v15) = W3 m c (Proc.devRef .tc main_v15)) :
    W (Proc.devRef .tc main_v15) = broadcastInDim S50000x1 ![0] bcast_S50000_S50000x1_0 (Cert.KSpec.indeg (F := Ideal) (eDst m c)) := h.trans (W3_v15 m c)
theorem Wk_v18 {W : Valuation τ sig (Elt Ideal)} (h : W (Proc.devRef .tc main_v18) = W3 m c (Proc.devRef .tc main_v18)) :
    W (Proc.devRef .tc main_v18) = Cert.KSpec.eaAgg (eDst m c) (eEa m c) := h.trans (W3_v18 m c)
theorem Wk_v28 {W : Valuation τ sig (Elt Ideal)} (h : W (Proc.devRef .tc main_v28) = W3 m c (Proc.devRef .tc main_v28)) :
    W (Proc.devRef .tc main_v28) = Cert.KSpec.nsum (aX m c) (eDst m c) (eSrc m c) := h.trans (W3_v28 m c)

theorem W5_v56 : W5 m c (Proc.devRef .tc main_v56) = Cert.KSpec.agg (kH1 m c) (eDst m c) (eSrc m c) (eEa m c) := by
  show StableHlo.after hostOps2 (W4 m c) (Proc.devRef .tc main_v56) = _
  rw [hr2_agg, Wk_v5 m c (W := W4 m c) (W4_from3 m c main_v5 (by decide)), Wk_v8 m c (W := W4 m c) (W4_from3 m c main_v8 (by decide)), Wk_v15 m c (W := W4 m c) (W4_from3 m c main_v15 (by decide)),
    Wk_v18 m c (W := W4 m c) (W4_from3 m c main_v18 (by decide)), W4_v43]
  rfl
theorem W5_v57 : W5 m c (Proc.devRef .tc main_v57) = Cert.Spec.row64 (aBmh m c) := by
  show StableHlo.after hostOps2 (W4 m c) (Proc.devRef .tc main_v57) = _
  rw [hr2_b, show W4 m c (Proc.devRef .tc main_arg5) = aBmh m c from W4_from0 m c main_arg5 (by decide) (by decide) (by decide) (by decide)]
  exact Cert.Glue.row_eq _ _ _ (by decide)

theorem W6_v58 : W6 m c (Proc.devRef .tc main_v58) = kH2 m c := by
  rw [W6_out, final2 (U5 m) c]
  dsimp only [U5]
  rw [W5_v56, W5_v57, show W5 m c (Proc.devRef .tc main_arg4) = aWmh m c from W5_from0 m c main_arg4 (by decide) (by decide) (by decide) (by decide) (by decide),
    show W5 m c (Proc.devRef .tc main_v1) = kH0 m c from (W5_from2 m c main_v1 (by decide) (by decide) (by decide)).trans (W2_v1 m c)]
  rfl

theorem W7_v71 : W7 m c (Proc.devRef .tc main_v71) = Cert.KSpec.agg (kH2 m c) (eDst m c) (eSrc m c) (eEa m c) := by
  show StableHlo.after hostOps3 (W6 m c) (Proc.devRef .tc main_v71) = _
  rw [hr3_agg, Wk_v5 m c (W := W6 m c) (W6_from3 m c main_v5 (by decide) (by decide) (by decide)), Wk_v8 m c (W := W6 m c) (W6_from3 m c main_v8 (by decide) (by decide) (by decide)), Wk_v15 m c (W := W6 m c) (W6_from3 m c main_v15 (by decide) (by decide) (by decide)),
    Wk_v18 m c (W := W6 m c) (W6_from3 m c main_v18 (by decide) (by decide) (by decide)), W6_v58]
  rfl
theorem W7_v72 : W7 m c (Proc.devRef .tc main_v72) = Cert.Spec.row64 (aBmh m c) := by
  show StableHlo.after hostOps3 (W6 m c) (Proc.devRef .tc main_v72) = _
  rw [hr3_b, show W6 m c (Proc.devRef .tc main_arg5) = aBmh m c from W6_from0 m c main_arg5 (by decide) (by decide) (by decide) (by decide) (by decide) (by decide)]
  exact Cert.Glue.row_eq _ _ _ (by decide)

theorem W8_v73 : W8 m c (Proc.devRef .tc main_v73) = kH3 m c := by
  rw [W8_out, final3 (U7 m) c]
  dsimp only [U7]
  rw [W7_v71, W7_v72, show W7 m c (Proc.devRef .tc main_arg4) = aWmh m c from W7_from0 m c main_arg4 (by decide) (by decide) (by decide) (by decide) (by decide) (by decide) (by decide),
    show W7 m c (Proc.devRef .tc main_v1) = kH0 m c from (W7_from2 m c main_v1 (by decide) (by decide) (by decide) (by decide) (by decide)).trans (W2_v1 m c)]
  rfl

theorem W9_v86 : W9 m c (Proc.devRef .tc main_v86) = Cert.KSpec.agg2 (kH3 m c) (aX m c) (eDst m c) (eSrc m c) := by
  show StableHlo.after hostOps4 (W8 m c) (Proc.devRef .tc main_v86) = _
  rw [hr4_agg, Wk_v5 m c (W := W8 m c) (W8_from3 m c main_v5 (by decide) (by decide) (by decide) (by decide) (by decide)), Wk_v8 m c (W := W8 m c) (W8_from3 m c main_v8 (by decide) (by decide) (by decide) (by decide) (by decide)), Wk_v15 m c (W := W8 m c) (W8_from3 m c main_v15 (by decide) (by decide) (by decide) (by decide) (by decide)),
    Wk_v28 m c (W := W8 m c) (W8_from3 m c main_v28 (by decide) (by decide) (by decide) (by decide) (by decide)), W8_v73]
  rfl
theorem W9_v87 : W9 m c (Proc.devRef .tc main_v87) = Cert.Spec.row64 (aBom m c) := by
  show StableHlo.after hostOps4 (W8 m c) (Proc.devRef .tc main_v87) = _
  rw [hr4_b, show W8 m c (Proc.devRef .tc main_arg7) = aBom m c from W8_from0 m c main_arg7 (by decide) (by decide) (by decide) (by decide) (by decide) (by decide) (by decide) (by decide)]
  exact Cert.Glue.row_eq _ _ _ (by decide)

theorem W10_v88 : W10 m c (Proc.devRef .tc main_v88) = kOut m c := by
  rw [W10_out, final4 (U9 m) c]
  dsimp only [U9]
  rw [W9_v86, W9_v87, show W9 m c (Proc.devRef .tc main_arg6) = aWom m c from W9_from0 m c main_arg6 (by decide) (by decide) (by decide) (by decide) (by decide) (by decide) (by decide) (by decide) (by decide)]
  rfl

theorem W11_v89 : W11 m c (Proc.devRef .tc main_v89)
    = broadcastInDim Cert.ReferenceIdeal.S50000x1 ![0] Cert.ReferenceIdeal.Gen.bcast_S50000_S50000x1_0 (aBatch m c) := by
  show StableHlo.after hostOps5 (W10 m c) (Proc.devRef .tc main_v89) = _
  rw [hr5_batch, show W10 m c (Proc.devRef .tc main_arg11) = aBatch m c from W10_from0 m c main_arg11 (by decide) (by decide) (by decide) (by decide) (by decide) (by decide) (by decide) (by decide) (by decide) (by decide)]
  exact Cert.Glue.col_eq _ _ _ (by decide)
theorem W11_v90 : W11 m c (Proc.devRef .tc main_v90)
    = broadcastInDim Cert.ReferenceIdeal.S1x1 ![1] Cert.ReferenceIdeal.Gen.bcast_S1_S1x1_1 (aBout m c) := by
  show StableHlo.after hostOps5 (W10 m c) (Proc.devRef .tc main_v90) = _
  rw [hr5_b, show W10 m c (Proc.devRef .tc main_arg9) = aBout m c from W10_from0 m c main_arg9 (by decide) (by decide) (by decide) (by decide) (by decide) (by decide) (by decide) (by decide) (by decide) (by decide)]
  exact Cert.Glue.one_eq _ _ _

theorem kernel_result : W12 m c (Proc.devRef .tc main_v91) = kRes m c := by
  rw [W12_result, final5 (U11 m) c]
  dsimp only [U11]
  rw [W11_v89, W11_v90, show W11 m c (Proc.devRef .tc main_arg8) = aWout m c from W11_from0 m c main_arg8 (by decide) (by decide) (by decide) (by decide) (by decide) (by decide) (by decide) (by decide) (by decide) (by decide) (by decide),
    show W11 m c (Proc.devRef .tc main_v88) = kOut m c from (W11_of m c main_v88 (by decide)).trans (W10_v88 m c)]
  rfl

end Cert.KernelIdeal.Frame

end
-- ==== Proof.Law.lean ====
import proofs.«426835_j41618233099040_1_alg».proof.Proof.KSpec
import proofs.«426835_j41618233099040_1_alg».proof.Proof.LibScatter
import Idealize.ShloMosaic.Lib.Pipeline.Value
import Idealize.ShloMosaic.Lib.ValueIdx
import Idealize.ShloMosaic.PureOps.Ideal.Laws

noncomputable section

namespace Cert.Law

open Idealize.ShloMosaic Idealize.ShloMosaic.ValueIdx Cert.LibScatter Cert.ReferenceIdeal
open scoped BigOperators

theorem nsmul_eq_natCast_mul (k : ℕ) (a : EReal) : k • a = (k : EReal) * a := by
  induction k with
  | zero => simp
  | succ k ih =>
    rw [succ_nsmul, ih, Nat.cast_succ, EReal.right_distrib_of_nonneg (Nat.cast_nonneg' k) zero_le_one, one_mul]

theorem one_f32 : Ideal.ofBits .f32 0x3F800000#32 = 1 := IdealRules.sign_bit.ideal_onePat .f32

def wrap (b : BitVec 32) : BitVec 32 := Scalar.select (IntOp.cmpi .slt b 0#32) (IntOp.addi b 50000#32) b

theorem wrap_of_nonneg (b : BitVec 32) (hb : 0 ≤ b.toInt) : wrap b = b := by
  unfold wrap Scalar.select IntOp.cmpi
  have : b.slt 0#32 = false := by
    simp only [BitVec.slt, BitVec.toInt_zero, decide_eq_false_iff_not, not_lt]; exact hb
  simp [this]

theorem col_apply (v : IVec S850000 32) (e : Fin 850000) (z : Fin 1) : Cert.Spec.col v (ix2 e z) = v (ix1 e) :=
  broadcastInDim_apply _ _ v (ix2 e z) (ix1 e) (fun a => by
    obtain rfl : a = 0 := Subsingleton.elim _ _
    rfl)

theorem wrapCol_apply (v : IVec S850000 32) (e : Fin 850000) (z : Fin 1) :
    Cert.Spec.wrapCol v (ix2 e z) = wrap (v (ix1 e)) :=
  broadcastInDim_apply _ _ _ (ix2 e z) (ix1 e) (fun a => by
    obtain rfl : a = 0 := Subsingleton.elim _ _
    rfl)

theorem rowsAt_apply (h : FVec Ideal S50000x64 .f32) (v : IVec S850000 32) (e : Fin 850000) (q : Fin 64)
    (r : Fin 50000) (hr : r.val = min (wrap (v (ix1 e))).toInt.toNat (50000 - 1)) :
    Cert.Spec.rowsAt h v (ix2 e q) = h (ix2 r q) := by
  unfold Cert.Spec.rowsAt
  rw [gather_rows_apply (by omega) _ rfl rfl rfl rfl rfl rfl rfl h (Cert.Spec.wrapCol v) e q]
  refine congrArg (fun r => h (ix2 r q)) (Fin.ext ?_)
  show min (Cert.Spec.wrapCol v (ix2 e 0)).toInt.toNat (50000 - 1) = r.val
  rw [wrapCol_apply, hr]

def into (dst : IVec S850000 32) (n : Fin 50000) : Finset (Fin 850000) :=
  Finset.univ.filter (fun e => (dst (ix1 e)).toInt = (n.val : ℤ))

theorem rowsAt_dst_of_mem (h : FVec Ideal S50000x64 .f32) (dst : IVec S850000 32) (n : Fin 50000) (e : Fin 850000)
    (he : e ∈ into dst n) (q : Fin 64) : Cert.Spec.rowsAt h dst (ix2 e q) = h (ix2 n q) := by
  have hn : (dst (ix1 e)).toInt = (n.val : ℤ) := (Finset.mem_filter.1 he).2
  refine rowsAt_apply h dst e q n ?_
  rw [wrap_of_nonneg _ (by omega)]
  have := n.isLt
  omega

theorem scatter_zero_col_apply {C : Nat} (d : ScatterDims ⟨2, ![50000, C]⟩ S850000x1 ⟨2, ![850000, C]⟩)
    (hu : d.updateWindowDims = [1]) (hi : d.insertedWindowDims = [0]) (hs : d.scatterDimsToOperandDims = [0])
    (hv : d.indexVectorDim = 1) (hb : S_.BroadcastsInDim ⟨2, ![50000, C]⟩ (![] : Fin 0 → Fin 2))
    (dst : IVec S850000 32) (upd : FVec Ideal ⟨2, ![850000, C]⟩ .f32) (n : Fin 50000) (q : Fin C) :
    Host.scatterAdd d (broadcastInDim ⟨2, ![50000, C]⟩ ![] hb (constant S_ .f32 0x00000000#32)) (Cert.Spec.col dst) upd (ix2 n q)
      = ∑ e ∈ into dst n, upd (ix2 e q) := by
  rw [scatterAdd_rows_apply d hu hi hs hv]
  simp only [col_apply]
  show Ideal.ofBits .f32 0x00000000#32 + _ = _
  rw [Ideal.ofBits_zero_f32, zero_add]
  rfl

theorem nsum_apply (h : FVec Ideal S50000x64 .f32) (dst src : IVec S850000 32) (n : Fin 50000) (q : Fin 64) :
    Cert.KSpec.nsum h dst src (ix2 n q) = ∑ e ∈ into dst n, Cert.Spec.rowsAt h src (ix2 e q) :=
  scatter_zero_col_apply _ rfl rfl rfl rfl _ dst _ n q

theorem eaAgg_apply (dst : IVec S850000 32) (ea : FVec Ideal S850000x16 .f32) (n : Fin 50000) (q : Fin 16) :
    Cert.KSpec.eaAgg dst ea (ix2 n q) = ∑ e ∈ into dst n, ea (ix2 e q) :=
  scatter_zero_col_apply _ rfl rfl rfl rfl _ dst _ n q

theorem indeg_apply (dst : IVec S850000 32) (n : Fin 50000) :
    Cert.KSpec.indeg (F := Ideal) dst (ix1 n) = ((into dst n).card : EReal) := by
  unfold Cert.KSpec.indeg
  rw [scatterAdd_vec_apply _ rfl rfl rfl rfl]
  simp only [col_apply]
  show Ideal.ofBits .f32 0x00000000#32 + ∑ e ∈ into dst n, Ideal.ofBits .f32 0x3F800000#32 = _
  rw [Ideal.ofBits_zero_f32, zero_add, one_f32, Finset.sum_const, nsmul_eq_natCast_mul, mul_one]

theorem indegB_apply (dst : IVec S850000 32) (n : Fin 50000) (q : Fin 64) :
    Cert.KSpec.indegB (F := Ideal) dst (ix2 n q) = ((into dst n).card : EReal) := by
  unfold Cert.KSpec.indegB
  rw [broadcastInDim_apply _ _ _ (ix2 n q) (ix2 n 0) (fun a => by match a with | ⟨0, _⟩ => rfl | ⟨1, _⟩ => rfl),
    broadcastInDim_apply _ _ _ (ix2 n 0) (ix1 n) (fun a => by obtain rfl : a = 0 := Subsingleton.elim _ _; rfl),
    indeg_apply]

theorem sum_rowsAt_dst (h : FVec Ideal S50000x64 .f32) (dst : IVec S850000 32) (n : Fin 50000) (q : Fin 64) :
    ∑ e ∈ into dst n, Cert.Spec.rowsAt h dst (ix2 e q) = ((into dst n).card : EReal) * h (ix2 n q) := by
  rw [Finset.sum_congr rfl (fun e he => rowsAt_dst_of_mem h dst n e he q), Finset.sum_const, nsmul_eq_natCast_mul]

theorem agg_apply (h : FVec Ideal S50000x64 .f32) (dst src : IVec S850000 32) (ea : FVec Ideal S850000x16 .f32)
    (n : Fin 50000) (q : Fin 144) :
    Cert.KSpec.agg h dst src ea (ix2 n q) = Cert.Spec.agg h dst src ea (ix2 n q) := by
  unfold Cert.KSpec.agg Cert.Spec.agg
  rw [scatter_zero_col_apply _ rfl rfl rfl rfl, cat3_apply _ _ _ _ n q]
  simp only [cat3_apply _ _ _ _ _ q]
  by_cases h1 : q.val < 64
  · simp only [dif_pos h1]
    rw [mulf_apply, indegB_apply, sum_rowsAt_dst]
  · simp only [dif_neg h1]
    by_cases h2 : q.val < 64 + 64
    · simp only [dif_pos h2]
      exact nsum_apply h dst src n _
    · simp only [dif_neg h2]
      exact eaAgg_apply dst ea n _

-- A node's own row summed over its incoming edges is its in-degree times that row.
theorem agg_eq (h : FVec Ideal S50000x64 .f32) (dst src : IVec S850000 32) (ea : FVec Ideal S850000x16 .f32) :
    Cert.KSpec.agg h dst src ea = Cert.Spec.agg h dst src ea := by
  funext i
  rw [eq_ix2 i]
  exact agg_apply h dst src ea _ _

theorem agg2_apply (h x : FVec Ideal S50000x64 .f32) (dst src : IVec S850000 32) (n : Fin 50000) (q : Fin 192) :
    Cert.KSpec.agg2 h x dst src (ix2 n q) = Cert.Spec.agg2 h x dst src (ix2 n q) := by
  unfold Cert.KSpec.agg2 Cert.Spec.agg2
  rw [scatter_zero_col_apply _ rfl rfl rfl rfl, cat3_apply _ _ _ _ n q]
  simp only [cat3_apply _ _ _ _ _ q]
  by_cases h1 : q.val < 64
  · simp only [dif_pos h1]
    rw [mulf_apply, indegB_apply, sum_rowsAt_dst]
  · simp only [dif_neg h1]
    by_cases h2 : q.val < 64 + 64
    · simp only [dif_pos h2]
      exact nsum_apply h dst src n _
    · simp only [dif_neg h2]
      exact nsum_apply x dst src n _

theorem agg2_eq (h x : FVec Ideal S50000x64 .f32) (dst src : IVec S850000 32) :
    Cert.KSpec.agg2 h x dst src = Cert.Spec.agg2 h x dst src := by
  funext i
  rw [eq_ix2 i]
  exact agg2_apply h x dst src _ _

end Cert.Law

end
-- ==== Proof.Bridge.lean ====
import proofs.«426835_j41618233099040_1_alg».proof.Proof.KI.KValue
import proofs.«426835_j41618233099040_1_alg».proof.Proof.Law

set_option maxRecDepth 16384

noncomputable section

namespace Cert.KernelIdeal.Frame

open Cert.KernelIdeal Cert.KernelIdeal.Gen Idealize.ShloMosaic Idealize.ShloMosaic.TcCoe Idealize.SL.Sem

variable (m : (ℓ : Loc nD τ sig) → Buf (Elt Ideal) ℓ) (c : Dev nD)

theorem kStep_eq (h : FVec Ideal S50000x64 .f32) : kStep m c h
    = Cert.Spec.layer (Cert.Spec.agg h (eDst m c) (eSrc m c) (eEa m c)) (aWmh m c) (Cert.Spec.row64 (aBmh m c)) (kH0 m c) := by
  unfold kStep; rw [Cert.Law.agg_eq]

-- The kernel's stages are the reference's, the aggregation rewritten by Law.lean.
theorem kRes_eq : kRes m c
    = Cert.Spec.final (aX m c) (aE m c) (aWnh m c) (aBnh m c) (aWmh m c) (aBmh m c) (aWom m c) (aBom m c) (aWout m c) (aBout m c)
        (aEi m c) (aBatch m c) := by
  unfold kRes kOut kH3 kH2 kH1
  rw [Cert.Law.agg2_eq, kStep_eq, kStep_eq, kStep_eq]
  rfl

end Cert.KernelIdeal.Frame

end
-- ==== Proof.RefRun.lean ====
import proofs.«426835_j41618233099040_1_alg».proof.Proof.Gen.ReferenceIdeal
import proofs.«426835_j41618233099040_1_alg».proof.Proof.RefOps
import proofs.«426835_j41618233099040_1_alg».proof.Proof.LibNary
import proofs.«426835_j41618233099040_1_alg».proof.Proof.Spec
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev c0 : List (HloOp τ sig (Elt F)) := ops.take 17
abbrev c1 : List (HloOp τ sig (Elt F)) := (ops.drop 17).take 31
abbrev c2 : List (HloOp τ sig (Elt F)) := (ops.drop 48).take 31
abbrev c3 : List (HloOp τ sig (Elt F)) := (ops.drop 79).take 31
abbrev c4 : List (HloOp τ sig (Elt F)) := (ops.drop 110).take 39
abbrev c5 : List (HloOp τ sig (Elt F)) := ops.drop 149

macro "read_line" : tactic =>
  `(tactic| (dsimp only [c0, c1, c2, c3, c4, c5, ops, List.take, List.drop]
             simp (disch := decide) only [after_cons, after_nil,
      nullary_result', unary_result', binary_result', ternary_result', quaternary_result', reshape_result',
      Cert.LibNary.nary3_result', nary4_result', nary_result',
      nullary_result_ne', unary_result_ne', binary_result_ne', ternary_result_ne', quaternary_result_ne', reshape_result_ne',
      nary_result_ne']))

macro "writes_in" : tactic =>
  `(tactic| (dsimp only [c0, c1, c2, c3, c4, c5, ops, List.take, List.drop]
             simp only [List.Forall, nullary_writes, unary_writes, binary_writes, ternary_writes, reshape_writes, nary_writes]
             repeat' apply And.intro
             all_goals (rw [Finset.singleton_subset_iff, List.mem_toFinset]; exact List.mem_map.mpr ⟨_, by decide, rfl⟩)))

abbrev written0 : List (Ref sig .tc) :=
  [main_v0, main_v1, main_v2, main_v3, main_call0_cst, main_call0_v0, main_v4, main_v5, main_v6, main_v7, main_v8, main_v9, main_v10, main_v11, main_cst, main_v12, main_v13]

theorem written0_sub : (c0 : List (HloOp τ sig (Elt F))).Forall fun op => op.writes ⊆ (written0.map (Proc.devRef (τ := τ) .tc)).toFinset := by
  writes_in

theorem keeps0 (V : Valuation τ sig (Elt F)) (r : Ref sig .tc) (hr : r ∉ written0) :
    after c0 V (Proc.devRef .tc r) = V (Proc.devRef .tc r) := after_of_writes_sub c0 V written0_sub hr

theorem stage0_h (V : Valuation τ sig (Elt F)) :
    after c0 V (Proc.devRef .tc main_v4) = Cert.Spec.h0 (V (Proc.devRef .tc main_arg0)) (V (Proc.devRef .tc main_arg2)) (Cert.Spec.row64 (V (Proc.devRef .tc main_arg3))) := by
  read_line
  rfl

theorem stage0_src (V : Valuation τ sig (Elt F)) :
    after c0 V (Proc.devRef .tc main_v8) = Cert.Spec.src (V (Proc.devRef .tc main_arg10)) := by
  read_line
  rfl

theorem stage0_dst (V : Valuation τ sig (Elt F)) :
    after c0 V (Proc.devRef .tc main_v11) = Cert.Spec.dst (V (Proc.devRef .tc main_arg10)) := by
  read_line
  rfl

theorem stage0_ea (V : Valuation τ sig (Elt F)) :
    after c0 V (Proc.devRef .tc main_v13) = Cert.Spec.ea (V (Proc.devRef .tc main_arg1)) := by
  read_line
  rfl

abbrev written1 : List (Ref sig .tc) :=
  [main_c, main_v14, main_v15, main_c_0, main_v16, main_v17, main_v18, main_v19, main_v20, main_c_1, main_v21, main_v22, main_c_2, main_v23, main_v24, main_v25, main_v26, main_v27, main_v28, main_cst_3, main_v29, main_v30, main_v31, main_v32, main_v33, main_v34, main_v35, main_v36, main_call1_cst, main_call1_v0, main_v37]

theorem written1_sub : (c1 : List (HloOp τ sig (Elt F))).Forall fun op => op.writes ⊆ (written1.map (Proc.devRef (τ := τ) .tc)).toFinset := by
  writes_in

theorem keeps1 (V : Valuation τ sig (Elt F)) (r : Ref sig .tc) (hr : r ∉ written1) :
    after c1 V (Proc.devRef .tc r) = V (Proc.devRef .tc r) := after_of_writes_sub c1 V written1_sub hr

theorem stage1 (V : Valuation τ sig (Elt F)) :
    after c1 V (Proc.devRef .tc main_v37)
      = Cert.Spec.layer (Cert.Spec.agg (V (Proc.devRef .tc main_v4)) (V (Proc.devRef .tc main_v11)) (V (Proc.devRef .tc main_v8)) (V (Proc.devRef .tc main_v13)))
          (V (Proc.devRef .tc main_arg4)) (Cert.Spec.row64 (V (Proc.devRef .tc main_arg5))) (V (Proc.devRef .tc main_v4)) := by
  read_line
  rfl

abbrev written2 : List (Ref sig .tc) :=
  [main_c_4, main_v38, main_v39, main_c_5, main_v40, main_v41, main_v42, main_v43, main_v44, main_c_6, main_v45, main_v46, main_c_7, main_v47, main_v48, main_v49, main_v50, main_v51, main_v52, main_cst_8, main_v53, main_v54, main_v55, main_v56, main_v57, main_v58, main_v59, main_v60, main_call2_cst, main_call2_v0, main_v61]

theorem written2_sub : (c2 : List (HloOp τ sig (Elt F))).Forall fun op => op.writes ⊆ (written2.map (Proc.devRef (τ := τ) .tc)).toFinset := by
  writes_in

theorem keeps2 (V : Valuation τ sig (Elt F)) (r : Ref sig .tc) (hr : r ∉ written2) :
    after c2 V (Proc.devRef .tc r) = V (Proc.devRef .tc r) := after_of_writes_sub c2 V written2_sub hr

theorem stage2 (V : Valuation τ sig (Elt F)) :
    after c2 V (Proc.devRef .tc main_v61)
      = Cert.Spec.layer (Cert.Spec.agg (V (Proc.devRef .tc main_v37)) (V (Proc.devRef .tc main_v11)) (V (Proc.devRef .tc main_v8)) (V (Proc.devRef .tc main_v13)))
          (V (Proc.devRef .tc main_arg4)) (Cert.Spec.row64 (V (Proc.devRef .tc main_arg5))) (V (Proc.devRef .tc main_v4)) := by
  read_line
  rfl

abbrev written3 : List (Ref sig .tc) :=
  [main_c_9, main_v62, main_v63, main_c_10, main_v64, main_v65, main_v66, main_v67, main_v68, main_c_11, main_v69, main_v70, main_c_12, main_v71, main_v72, main_v73, main_v74, main_v75, main_v76, main_cst_13, main_v77, main_v78, main_v79, main_v80, main_v81, main_v82, main_v83, main_v84, main_call3_cst, main_call3_v0, main_v85]

theorem written3_sub : (c3 : List (HloOp τ sig (Elt F))).Forall fun op => op.writes ⊆ (written3.map (Proc.devRef (τ := τ) .tc)).toFinset := by
  writes_in

theorem keeps3 (V : Valuation τ sig (Elt F)) (r : Ref sig .tc) (hr : r ∉ written3) :
    after c3 V (Proc.devRef .tc r) = V (Proc.devRef .tc r) := after_of_writes_sub c3 V written3_sub hr

theorem stage3 (V : Valuation τ sig (Elt F)) :
    after c3 V (Proc.devRef .tc main_v85)
      = Cert.Spec.layer (Cert.Spec.agg (V (Proc.devRef .tc main_v61)) (V (Proc.devRef .tc main_v11)) (V (Proc.devRef .tc main_v8)) (V (Proc.devRef .tc main_v13)))
          (V (Proc.devRef .tc main_arg4)) (Cert.Spec.row64 (V (Proc.devRef .tc main_arg5))) (V (Proc.devRef .tc main_v4)) := by
  read_line
  rfl

abbrev written4 : List (Ref sig .tc) :=
  [main_c_14, main_v86, main_v87, main_c_15, main_v88, main_v89, main_v90, main_v91, main_v92, main_c_16, main_v93, main_v94, main_c_17, main_v95, main_v96, main_v97, main_v98, main_v99, main_c_18, main_v100, main_v101, main_c_19, main_v102, main_v103, main_v104, main_v105, main_v106, main_v107, main_cst_20, main_v108, main_v109, main_v110, main_v111, main_v112, main_v113, main_v114, main_call4_cst, main_call4_v0, main_v115]

theorem written4_sub : (c4 : List (HloOp τ sig (Elt F))).Forall fun op => op.writes ⊆ (written4.map (Proc.devRef (τ := τ) .tc)).toFinset := by
  writes_in

theorem keeps4 (V : Valuation τ sig (Elt F)) (r : Ref sig .tc) (hr : r ∉ written4) :
    after c4 V (Proc.devRef .tc r) = V (Proc.devRef .tc r) := after_of_writes_sub c4 V written4_sub hr

theorem stage4 (V : Valuation τ sig (Elt F)) :
    after c4 V (Proc.devRef .tc main_v115)
      = Cert.Spec.outm (Cert.Spec.agg2 (V (Proc.devRef .tc main_v85)) (V (Proc.devRef .tc main_arg0)) (V (Proc.devRef .tc main_v11)) (V (Proc.devRef .tc main_v8)))
          (V (Proc.devRef .tc main_arg6)) (Cert.Spec.row64 (V (Proc.devRef .tc main_arg7))) := by
  read_line
  rfl

abbrev written5 : List (Ref sig .tc) :=
  [main_cst_21, main_v116, main_v117, main_v118, main_v119, main_v120, main_v121, main_v122]

theorem written5_sub : (c5 : List (HloOp τ sig (Elt F))).Forall fun op => op.writes ⊆ (written5.map (Proc.devRef (τ := τ) .tc)).toFinset := by
  writes_in

theorem keeps5 (V : Valuation τ sig (Elt F)) (r : Ref sig .tc) (hr : r ∉ written5) :
    after c5 V (Proc.devRef .tc r) = V (Proc.devRef .tc r) := after_of_writes_sub c5 V written5_sub hr

theorem stage5 (V : Valuation τ sig (Elt F)) :
    after c5 V (Proc.devRef .tc main_v122)
      = Cert.Spec.pool (V (Proc.devRef .tc main_v115)) (broadcastInDim S50000x1 ![0] bcast_S50000_S50000x1_0 (V (Proc.devRef .tc main_arg11)))
          (V (Proc.devRef .tc main_arg8)) (broadcastInDim S1x1 ![1] bcast_S1_S1x1_1 (V (Proc.devRef .tc main_arg9))) := by
  read_line
  rfl

theorem ops_split : (ops : List (HloOp τ sig (Elt F))) = c0 ++ (c1 ++ (c2 ++ (c3 ++ (c4 ++ c5)))) := rfl

theorem kept (W : Valuation τ sig (Elt F)) (r : Ref sig .tc) (h0 : r ∉ written0) (h1 : r ∉ written1) (h2 : r ∉ written2)
    (h3 : r ∉ written3) (h4 : r ∉ written4) (h5 : r ∉ written5) :
    after ops W (Proc.devRef .tc r) = W (Proc.devRef .tc r) := by
  rw [ops_split, after_append, after_append, after_append, after_append, after_append,
    keeps5 _ r h5, keeps4 _ r h4, keeps3 _ r h3, keeps2 _ r h2, keeps1 _ r h1, keeps0 _ r h0]

theorem fresh_all : ∀ op ∈ (ops : List (HloOp τ sig (Elt F))), op.fresh = ∅ :=
  List.forall_iff_forall_mem.mp (by simp only [List.Forall]; repeat' constructor)

theorem result (W : Valuation τ sig (Elt F)) :
    after ops W (Proc.devRef .tc main_v122)
      = Cert.Spec.final (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [ops_split, after_append, after_append, after_append, after_append, after_append]
  rw [stage5, stage4, keeps4 _ main_arg11 (by decide), keeps4 _ main_arg8 (by decide), keeps4 _ main_arg9 (by decide)]
  rw [stage3, keeps3 _ main_arg0 (by decide), keeps3 _ main_v11 (by decide), keeps3 _ main_v8 (by decide), keeps3 _ main_arg6 (by decide), keeps3 _ main_arg7 (by decide), keeps3 _ main_arg11 (by decide), keeps3 _ main_arg8 (by decide), keeps3 _ main_arg9 (by decide)]
  rw [stage2, keeps2 _ main_v11 (by decide), keeps2 _ main_v8 (by decide), keeps2 _ main_v13 (by decide), keeps2 _ main_arg4 (by decide), keeps2 _ main_arg5 (by decide), keeps2 _ main_v4 (by decide), keeps2 _ main_arg0 (by decide), keeps2 _ main_arg6 (by decide), keeps2 _ main_arg7 (by decide), keeps2 _ main_arg11 (by decide), keeps2 _ main_arg8 (by decide), keeps2 _ main_arg9 (by decide)]
  rw [stage1, keeps1 _ main_v11 (by decide), keeps1 _ main_v8 (by decide), keeps1 _ main_v13 (by decide), keeps1 _ main_arg4 (by decide), keeps1 _ main_arg5 (by decide), keeps1 _ main_v4 (by decide), keeps1 _ main_arg0 (by decide), keeps1 _ main_arg6 (by decide), keeps1 _ main_arg7 (by decide), keeps1 _ main_arg11 (by decide), keeps1 _ main_arg8 (by decide), keeps1 _ main_arg9 (by decide)]
  rw [stage0_h, stage0_src, stage0_dst, stage0_ea, keeps0 _ main_arg4 (by decide), keeps0 _ main_arg5 (by decide), keeps0 _ main_arg0 (by decide), keeps0 _ main_arg6 (by decide), keeps0 _ main_arg7 (by decide), keeps0 _ main_arg11 (by decide), keeps0 _ main_arg8 (by decide), keeps0 _ main_arg9 (by decide)]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v122)
        = Cert.Spec.final (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v122).trans (result (launchContents m c)),
      (h c main_arg0).trans (kept (launchContents m c) main_arg0 (by decide) (by decide) (by decide) (by decide) (by decide) (by decide)),
      (h c main_arg1).trans (kept (launchContents m c) main_arg1 (by decide) (by decide) (by decide) (by decide) (by decide) (by decide)),
      (h c main_arg2).trans (kept (launchContents m c) main_arg2 (by decide) (by decide) (by decide) (by decide) (by decide) (by decide)),
      (h c main_arg3).trans (kept (launchContents m c) main_arg3 (by decide) (by decide) (by decide) (by decide) (by decide) (by decide)),
      (h c main_arg4).trans (kept (launchContents m c) main_arg4 (by decide) (by decide) (by decide) (by decide) (by decide) (by decide)),
      (h c main_arg5).trans (kept (launchContents m c) main_arg5 (by decide) (by decide) (by decide) (by decide) (by decide) (by decide)),
      (h c main_arg6).trans (kept (launchContents m c) main_arg6 (by decide) (by decide) (by decide) (by decide) (by decide) (by decide)),
      (h c main_arg7).trans (kept (launchContents m c) main_arg7 (by decide) (by decide) (by decide) (by decide) (by decide) (by decide)),
      (h c main_arg8).trans (kept (launchContents m c) main_arg8 (by decide) (by decide) (by decide) (by decide) (by decide) (by decide)),
      (h c main_arg9).trans (kept (launchContents m c) main_arg9 (by decide) (by decide) (by decide) (by decide) (by decide) (by decide)),
      (h c main_arg10).trans (kept (launchContents m c) main_arg10 (by decide) (by decide) (by decide) (by decide) (by decide) (by decide)),
      (h c main_arg11).trans (kept (launchContents m c) main_arg11 (by decide) (by decide) (by decide) (by decide) (by decide) (by decide))⟩)
    (run_seq scopedRefs_eq scopedSems_eq defs main (fun _ => ops) main_eq (fun _ => ops_sub) m ρ (fun _ => fresh_all))

end Cert.ReferenceIdeal.RefRun

end
-- ==== Proof.lean ====
import proofs.«426835_j41618233099040_1_alg».proof.Defs
import proofs.«426835_j41618233099040_1_alg».proof.Proof.Gen.Kernel
import proofs.«426835_j41618233099040_1_alg».proof.Proof.Gen.KernelIdeal
import proofs.«426835_j41618233099040_1_alg».proof.Proof.Gen.ReferenceIdeal
import proofs.«426835_j41618233099040_1_alg».proof.Proof.Gen.Pre_finite_inputs
import proofs.«426835_j41618233099040_1_alg».proof.Proof.KB.Main
import proofs.«426835_j41618233099040_1_alg».proof.Proof.KI.Main
import proofs.«426835_j41618233099040_1_alg».proof.Proof.Bridge
import proofs.«426835_j41618233099040_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ =>
  (θ_run Cert.Kernel.defs _ _).mono (fun _ h c => ⟨h c _ (by decide), h c _ (by decide), h c _ (by decide), h c _ (by decide), h c _ (by decide), h c _ (by decide), h c _ (by decide), h c _ (by decide), h c _ (by decide), h c _ (by decide), h c _ (by decide), h c _ (by decide)⟩)
    (Cert.Kernel.Frame.frame m ρ)

theorem frame_kernelIdeal : Cert.frame_KernelIdeal := fun m ρ _ =>
  (θ_run Cert.KernelIdeal.defs _ _).mono (fun _ h c => ⟨h c _ (by decide), h c _ (by decide), h c _ (by decide), h c _ (by decide), h c _ (by decide), h c _ (by decide), h c _ (by decide), h c _ (by decide), h c _ (by decide), h c _ (by decide), h c _ (by decide), h c _ (by decide)⟩)
    (Cert.KernelIdeal.Frame.frame m ρ)

-- The reference's frame is its run with the result dropped.
theorem frame_reference : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

-- Both programs end at one function of arguments that agree.
theorem algebraic : Cert.algebraic_KernelIdeal_ReferenceIdeal := by
  intro m ρ m' ρ' _ hagree
  refine ⟨fun c => Cert.KernelIdeal.Frame.kRes m c, ?_, ?_⟩
  · refine (θ_run Cert.KernelIdeal.defs _ _).mono (fun r h c => ?_) (Cert.KernelIdeal.Frame.run_all m ρ)
    have k := fun b hb => (h c _ (Cert.KernelIdeal.Frame.mem_uc b (Cert.KernelIdeal.Frame.argRefs_unscoped b hb))).trans
      (Cert.KernelIdeal.Frame.W12_arg m c b hb)
    exact ⟨(h c _ (Cert.KernelIdeal.Frame.mem_uc Cert.KernelIdeal.main_v91 (by decide))).trans (Cert.KernelIdeal.Frame.kernel_result m c),
      k _ (by decide), k _ (by decide), k _ (by decide), k _ (by decide), k _ (by decide), k _ (by decide), k _ (by decide), k _ (by decide), k _ (by decide), k _ (by decide), k _ (by decide), k _ (by decide)⟩
  · refine (θ_run Cert.ReferenceIdeal.defs _ _).mono (fun _ h c => ⟨(h c).1.trans ?_, (h c).2⟩)
      (Cert.ReferenceIdeal.RefRun.run m' ρ')
    obtain ⟨e0, e1, e2, e3, e4, e5, e6, e7, e8, e9, e10, e11⟩ := hagree c
    rw [e0, e1, e2, e3, e4, e5, e6, e7, e8, e9, e10, e11]
    exact (Cert.KernelIdeal.Frame.kRes_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
